-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S8192x512 .f32) (main_arg1 : FVec F S8192x512 .f32) (main_arg2 : FVec F S512x512 .f32) (main_arg3 : FVec F S512x512 .f32) (main_arg4 : FVec F S512x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S8192x512 : Shape := ⟨2, ![8192, 512]⟩
abbrev S512x512 : Shape := ⟨2, ![512, 512]⟩
abbrev S2048x512 : Shape := ⟨2, ![2048, 512]⟩
abbrev S1024x512 : Shape := ⟨2, ![1024, 512]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 14
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S8192x512, .bf16⟩
  | .hbm, ⟨6, _⟩ => ⟨S8192x512, .bf16⟩
  | .hbm, ⟨7, _⟩ => ⟨S512x512, .bf16⟩
  | .hbm, ⟨8, _⟩ => ⟨S512x512, .bf16⟩
  | .hbm, ⟨9, _⟩ => ⟨S512x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x512, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S1024x1, .f32⟩
  | .local _ .vmem, ⟨22, _⟩ => ⟨S1024x1, .f32⟩
  | .local _ .vmem, ⟨23, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_27 : BitVec 32 := 0#32
  let v50 : BitVec 1 := Scalar.cmpi .ne v49 c0_i32_27
  v50

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S2048x512_S2048x512_0_0 : (Rect.unit (s := S2048x512) ![0, 0] S2048x512.size inb_S2048x512_S2048x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x512 : S1024x1.Broadcasts S1024x512
  dot_S2048x512_S512x512_S2048x512_1_0_0_1_n_n_wf : DotDims.WF S2048x512 S512x512 S2048x512 [1] [0] [0] [1] [] []
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S8192x512.size a
  hwx0_5 : ∀ i : grid0.Coords, EltTy.bits .bf16 = 32 ∨ (Rect.block (s := S8192x512) S2048x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S8192x512.size a
  hwx0_6 : ∀ i : grid0.Coords, EltTy.bits .bf16 = 32 ∨ (Rect.block (s := S8192x512) S2048x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S8192x512.size a
  hwx0_7 : ∀ i : grid0.Coords, EltTy.bits .bf16 = 32 ∨ (Rect.block (s := S8192x512) S2048x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .bf16 = 32 ∨ (Rect.block (s := S8192x512) S1024x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S2048x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S2048x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v5_0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S512x512 : Shape := ⟨2, ![512, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S512x8192, .f32⟩
  | .hbm, ⟨9, _⟩ => ⟨S8192x8192, .f32⟩
  | .hbm, ⟨10, _⟩ => ⟨S_, .f32⟩
  | .hbm, ⟨11, _⟩ => ⟨S_, .f32⟩
  | .hbm, ⟨12, _⟩ => ⟨S8192x8192, .f32⟩
  | .hbm, ⟨13, _⟩ => ⟨S8192x8192, .i1⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x512_S512x512_S8192x512_1_0_0_1_n_n_wf : DotDims.WF S8192x512 S512x512 S8192x512 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Spec.lean ====
import Idealize.ShloMosaic.PureOps.Ideal

noncomputable section

open scoped BigOperators

namespace Cert.Spec

def lrelu (c s : ℝ) : ℝ := if 0 < s then s else c * s

theorem lrelu_eq_of_le (c s : ℝ) : lrelu c s = if 0 ≤ s then s else c * s := by
  unfold lrelu
  by_cases h : 0 < s
  · simp [h, le_of_lt h]
  · by_cases h0 : s = 0
    · subst h0; simp
    · have : ¬ 0 ≤ s := fun hs => h (lt_of_le_of_ne hs (Ne.symm h0))
      simp [h, this]

def proj (x : Fin 8192 → Fin 512 → ℝ) (w : Fin 512 → Fin 512 → ℝ) (i : Fin 8192) (d : Fin 512) : ℝ :=
  ∑ k : Fin 512, x i k * w k d

def score (c : ℝ) (q k : Fin 8192 → Fin 512 → ℝ) (i j : Fin 8192) : ℝ :=
  lrelu c (∑ d : Fin 512, q i d * k j d)

def wavg {J : Type} [Fintype J] (e v : J → ℝ) (μ : ℝ) : ℝ :=
  (∑ j, Real.exp (e j - μ) * v j) / (∑ j, Real.exp (e j - μ))

def attn (c : ℝ) (x1 x2 : Fin 8192 → Fin 512 → ℝ) (wq wk wv : Fin 512 → Fin 512 → ℝ) (i : Fin 8192) (d : Fin 512) : ℝ :=
  wavg (fun j => score c (proj x1 wq) (proj x2 wk) i j) (fun j => proj x1 wv j d) 0

end Cert.Spec

end
-- ==== Proof.Consts.lean ====
import Idealize.ShloMosaic.PureOps.Ideal
import Idealize.ShloMosaic.PureOps.Ideal.Laws

noncomputable section

namespace Cert.Consts

open Idealize.ShloMosaic

theorem slope_ne_top : Ideal.ofBits .f32 0x3C23D70A#32 ≠ ⊤ := by
  simp [Ideal.ofBits, Ideal.ieee, -EReal.coe_mul]
theorem slope_ne_bot : Ideal.ofBits .f32 0x3C23D70A#32 ≠ ⊥ := by
  simp [Ideal.ofBits, Ideal.ieee, -EReal.coe_mul]

def slope : ℝ := (Ideal.ofBits .f32 0x3C23D70A#32).toReal
theorem ofBits_slope : Ideal.ofBits .f32 0x3C23D70A#32 = (slope : EReal) :=
  (EReal.coe_toReal slope_ne_top slope_ne_bot).symm

theorem negBig_ne_top : Ideal.ofBits .f32 0xFF333332#32 ≠ ⊤ := by
  simp [Ideal.ofBits, Ideal.ieee, -EReal.coe_mul]
theorem negBig_ne_bot : Ideal.ofBits .f32 0xFF333332#32 ≠ ⊥ := by
  simp [Ideal.ofBits, Ideal.ieee, -EReal.coe_mul]

def negBig : ℝ := (Ideal.ofBits .f32 0xFF333332#32).toReal
theorem ofBits_negBig : Ideal.ofBits .f32 0xFF333332#32 = (negBig : EReal) :=
  (EReal.coe_toReal negBig_ne_top negBig_ne_bot).symm

theorem ofBits_neg_inf : Ideal.ofBits .f32 0xFF800000#32 = ⊥ := by
  simp [Ideal.ofBits, Ideal.ieee]

theorem ofBits_zero : Ideal.ofBits .f32 0x00000000#32 = 0 := Ideal.ofBits_zero_f32

end Cert.Consts

end
-- ==== Proof.Finite.lean ====
import proofs.«406486_j8624294330992_3_alg».proof.Pre_finite_inputs
import proofs.«406486_j8624294330992_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Idealize.ShloMosaic.ValueIdx
open Cert.Pre_finite_inputs

local instance : Subsingleton S_.Idx := ⟨fun a b => funext fun d => d.elim0⟩

theorem real_of_abs_lt_inf (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem entry_real {s : Shape} {axes : List (Fin s.rank)} (a : FVec Ideal s .f32)
    (hb : S_.BroadcastsInDim s (![] : Fin 0 → Fin s.rank)) (init : IVec S_ 1)
    (hr : s.ReducesTo axes S_) (hu : 0 < S_.numel)
    (e : Host.reduce IntOp.andi
        (cmpf .olt (Host.absf a) (broadcastInDim s ![] hb (constant (F := Ideal) S_ .f32 0x7F800000#32)))
        init hr hu ValueIdx.ix0 = 1#1)
    (i : s.Idx) : ∃ r : ℝ, a i = (r : EReal) :=
  real_of_abs_lt_inf (a i) (Host.reduce_andi_all _ init hr hu ValueIdx.ix0 e i)

theorem array_real {n0 n1 : Nat} {axes : List (Fin (⟨2, ![n0, n1]⟩ : Shape).rank)}
    (a : FVec Ideal (⟨2, ![n0, n1]⟩ : Shape) .f32)
    (hb : S_.BroadcastsInDim (⟨2, ![n0, n1]⟩ : Shape) (![] : Fin 0 → Fin (⟨2, ![n0, n1]⟩ : Shape).rank)) (init : IVec S_ 1)
    (hr : (⟨2, ![n0, n1]⟩ : Shape).ReducesTo axes S_) (hu : 0 < S_.numel)
    (e : Host.reduce IntOp.andi
        (cmpf .olt (Host.absf a) (broadcastInDim (⟨2, ![n0, n1]⟩ : Shape) ![] hb (constant (F := Ideal) S_ .f32 0x7F800000#32)))
        init hr hu ValueIdx.ix0 = 1#1) :
    ∃ x : Fin n0 → Fin n1 → ℝ, ∀ p q, a (ValueIdx.ix2 p q) = ((x p q : ℝ) : EReal) := by
  choose x hx using fun p q => entry_real a hb init hr hu e (ValueIdx.ix2 p q)
  exact ⟨x, hx⟩

theorem real_of_pre [Cert.Pre_finite_inputs.Facts]
    (a0 a1 : FVec Ideal Cert.Pre_finite_inputs.S8192x512 .f32)
    (a2 a3 a4 : FVec Ideal Cert.Pre_finite_inputs.S512x512 .f32)
    (h : Cert.Pre_finite_inputs.fn (F := Ideal) a0 a1 a2 a3 a4 = fun _ => 1#1) :
    (∃ x1 : Fin 8192 → Fin 512 → ℝ, ∀ p q, a0 (ValueIdx.ix2 p q) = ((x1 p q : ℝ) : EReal))
    ∧ (∃ x2 : Fin 8192 → Fin 512 → ℝ, ∀ p q, a1 (ValueIdx.ix2 p q) = ((x2 p q : ℝ) : EReal))
    ∧ (∃ wq : Fin 512 → Fin 512 → ℝ, ∀ p q, a2 (ValueIdx.ix2 p q) = ((wq p q : ℝ) : EReal))
    ∧ (∃ wk : Fin 512 → Fin 512 → ℝ, ∀ p q, a3 (ValueIdx.ix2 p q) = ((wk p q : ℝ) : EReal))
    ∧ (∃ wv : Fin 512 → Fin 512 → ℝ, ∀ p q, a4 (ValueIdx.ix2 p q) = ((wv p q : ℝ) : EReal)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨array_real a0 _ _ _ _ e0, array_real a1 _ _ _ _ e1, array_real a2 _ _ _ _ e2,
    array_real a3 _ _ _ _ e3, array_real a4 _ _ _ _ e4⟩

end Cert.Finite

end
-- ==== Proof.RefRun.lean ====
import proofs.«406486_j8624294330992_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def stQ (a0 : FVec F S8192x512 .f32) (a2 : FVec F S512x512 .f32) : FVec F S8192x512 .f32 :=
  Host.dotGeneral (F := F) dot_S8192x512_S512x512_S8192x512_1_0_0_1_n_n none a0 a2

def stV (a0 : FVec F S8192x512 .f32) (a4 : FVec F S512x512 .f32) : FVec F S8192x512 .f32 :=
  Host.dotGeneral (F := F) dot_S8192x512_S512x512_S8192x512_1_0_0_1_n_n none a0 a4

def stK (a1 : FVec F S8192x512 .f32) (a3 : FVec F S512x512 .f32) : FVec F S8192x512 .f32 :=
  Host.dotGeneral (F := F) dot_S8192x512_S512x512_S8192x512_1_0_0_1_n_n none a1 a3

def stKT (a1 : FVec F S8192x512 .f32) (a3 : FVec F S512x512 .f32) : FVec F S512x8192 .f32 :=
  transpose S512x8192 [1, 0] (stK a1 a3) transposes_S8192x512_S512x8192_1_0

def stS (a0 a1 : FVec F S8192x512 .f32) (a2 a3 : FVec F S512x512 .f32) : FVec F S8192x8192 .f32 :=
  Host.dotGeneral (F := F) dot_S8192x512_S512x8192_S8192x8192_1_0_0_1_n_n none (stQ a0 a2) (stKT a1 a3)

def stE (a0 a1 : FVec F S8192x512 .f32) (a2 a3 : FVec F S512x512 .f32) : FVec F S8192x8192 .f32 :=
  select
    (cmpf .oge (stS a0 a1 a2 a3)
      (broadcastInDim S8192x8192 ![] bcast_S_S8192x8192 (constant (F := F) S_ .f32 0x00000000#32)))
    (stS a0 a1 a2 a3)
    (mulf (broadcastInDim S8192x8192 ![] bcast_S_S8192x8192 (id (constant (F := F) S_ .f32 0x3C23D70A#32)))
      (stS a0 a1 a2 a3))

def stM (a0 a1 : FVec F S8192x512 .f32) (a2 a3 : FVec F S512x512 .f32) : FVec F S8192 .f32 :=
  maximumf (broadcastInDim S8192 ![] bcast_S_S8192 (constant (F := F) S_ .f32 0xFF800000#32))
    (Host.reduce FloatOps.maximumf (stE a0 a1 a2 a3) (constant (F := F) S_ .f32 0xFF800000#32)
      reducesTo_S8192x8192_S8192_d1 h_S_)

def stP (a0 a1 : FVec F S8192x512 .f32) (a2 a3 : FVec F S512x512 .f32) : FVec F S8192x8192 .f32 :=
  Host.exp (F := F)
    (subf (stE a0 a1 a2 a3)
      (broadcastInDim S8192x8192 ![0, 1] bcast_S8192x1_S8192x8192_0_1
        (broadcastInDim S8192x1 ![0] bcast_S8192_S8192x1_0 (stM a0 a1 a2 a3))))

def stL (a0 a1 : FVec F S8192x512 .f32) (a2 a3 : FVec F S512x512 .f32) : FVec F S8192 .f32 :=
  Host.reduceAdd (F := F) (stP a0 a1 a2 a3) (constant (F := F) S_ .f32 0x00000000#32)
    reducesTo_S8192x8192_S8192_d1 h_S_

def stA (a0 a1 : FVec F S8192x512 .f32) (a2 a3 : FVec F S512x512 .f32) : FVec F S8192x8192 .f32 :=
  Host.divf (F := F) (stP a0 a1 a2 a3)
    (broadcastInDim S8192x8192 ![0, 1] bcast_S8192x1_S8192x8192_0_1
      (broadcastInDim S8192x1 ![0] bcast_S8192_S8192x1_0 (stL a0 a1 a2 a3)))

def refTerm (a0 a1 : FVec F S8192x512 .f32) (a2 a3 a4 : FVec F S512x512 .f32) : FVec F S8192x512 .f32 :=
  Host.dotGeneral (F := F) dot_S8192x8192_S8192x512_S8192x512_1_0_0_1_n_n none (stA a0 a1 a2 a3) (stV a0 a4)

abbrev ops : List (HloOp τ sig (Elt F)) :=
  [ binary main_arg0 main_arg2 main_v0 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    binary main_arg0 main_arg4 main_v1 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    binary main_arg1 main_arg3 main_v2 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v2 main_v3 ((transpose S512x8192 [1, 0] · transposes_S8192x512_S512x8192_1_0) : (⟨S8192x512, .f32⟩ : BufTy).Contents (Elt F) → (⟨S512x8192, .f32⟩ : BufTy).Contents (Elt F)),
    binary main_v0 main_v3 main_v4 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst (constant S_ .f32 0x3C23D70A#32),
    TRef.nullary main_call0.cst (constant S_ .f32 0x00000000#32),
    TRef.unary main_call0.cst main_call0.v0 (broadcastInDim S8192x8192 ![] bcast_S_S8192x8192),
    TRef.binary (.of main_v4) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v4) main_call0.v4 mulf,
    TRef.ternary main_call0.v1 (.of main_v4) main_call0.v4 main_call0.call0.v0 select,
    nullary main_cst_0 (constant S_ .f32 0xFF800000#32),
    binary main_v5 main_cst_0 main_v6 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_1 (constant S_ .f32 0xFF800000#32),
    unary main_cst_1 main_v7 (broadcastInDim S8192 ![] bcast_S_S8192 : (⟨S_, .f32⟩ : BufTy).Contents (Elt F) → (⟨S8192, .f32⟩ : BufTy).Contents (Elt F)),
    binary main_v7 main_v6 main_v8 (maximumf : (⟨S8192, .f32⟩ : BufTy).Contents (Elt F) → (⟨S8192, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)),
    unary main_v9 main_v10 (broadcastInDim S8192x8192 ![0, 1] bcast_S8192x1_S8192x8192_0_1 : (⟨S8192x1, .f32⟩ : BufTy).Contents (Elt F) → (⟨S8192x8192, .f32⟩ : BufTy).Contents (Elt F)),
    binary main_v5 main_v10 main_v11 (subf : (⟨S8192x8192, .f32⟩ : BufTy).Contents (Elt F) → (⟨S8192x8192, .f32⟩ : BufTy).Contents (Elt F) → (⟨S8192x8192, .f32⟩ : BufTy).Contents (Elt F)),
    unary main_v11 main_v12 (Host.exp : (⟨S8192x8192, .f32⟩ : BufTy).Contents (Elt F) → (⟨S8192x8192, .f32⟩ : BufTy).Contents (Elt F)),
    nullary main_cst_2 (constant S_ .f32 0x00000000#32),
    binary main_v12 main_cst_2 main_v13 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v13 main_v14 (broadcastInDim S8192x1 ![0] bcast_S8192_S8192x1_0 : (⟨S8192, .f32⟩ : BufTy).Contents (Elt F) → (⟨S8192x1, .f32⟩ : BufTy).Contents (Elt F)),
    unary main_v14 main_v15 (broadcastInDim S8192x8192 ![0, 1] bcast_S8192x1_S8192x8192_0_1 : (⟨S8192x1, .f32⟩ : BufTy).Contents (Elt F) → (⟨S8192x8192, .f32⟩ : BufTy).Contents (Elt F)),
    binary main_v12 main_v15 main_v16 (Host.divf : (⟨S8192x8192, .f32⟩ : BufTy).Contents (Elt F) → (⟨S8192x8192, .f32⟩ : BufTy).Contents (Elt F) → (⟨S8192x8192, .f32⟩ : BufTy).Contents (Elt F)),
    binary main_v16 main_v1 main_v17 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)) ]

set_option maxRecDepth 1024 in
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub ..⟩

attribute [local irreducible] Host.reduce Host.reduceAdd transpose broadcastInDim select cmpf mulf subf maximumf Host.exp Host.divf constant FloatOps.dotGeneral in
theorem out_eq (V : Valuation τ sig (Elt F)) :
    after ops V (main_v17 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  unfold refTerm stA stL stP stM stE stS stKT stK stQ stV
  rfl

theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp
theorem arg4_eq (V : Valuation τ sig (Elt F)) :
    after ops V (main_arg4 : DevRef τ sig) = V (main_arg4 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v17).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.RefRun

end
-- ==== Proof.RefDot.lean ====
import Idealize.ShloMosaic.PureOps.Ideal.Laws
import Idealize.ShloMosaic.Lib.ValueIdx

noncomputable section

open scoped BigOperators

namespace Cert.ReferenceIdeal.RefDot

open Idealize.ShloMosaic Idealize.ShloMosaic.ValueIdx

section PlainDot

variable {M K N : ℕ} (D : DotDims (⟨2, ![M, K]⟩ : Shape) (⟨2, ![K, N]⟩ : Shape) (⟨2, ![M, N]⟩ : Shape))

private theorem coord_congr {s : Shape} (j : s.Idx) (p q : ℕ) (hp : p < s.rank) (hq : q < s.rank) (h : p = q) :
    (j ⟨p, hp⟩).val = (j ⟨q, hq⟩).val := by subst h; rfl

theorem lhsIdx_axis0 (hlb : D.lhsBatch = []) (hln : D.lhsNonContracting = [0])
    (j : (⟨2, ![M, N]⟩ : Shape).Idx) (k : D.contr.Idx) : (D.lhsIdx j k 0).val = (j 0).val := by
  have hb : (0 : Fin (⟨2, ![M, K]⟩ : Shape).rank) ∉ D.lhsBatch := by rw [hlb]; exact List.not_mem_nil
  have hn : (0 : Fin (⟨2, ![M, K]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

theorem lhsIdx_axis1 (hlc : D.lhsContracting = [1])
    (j : (⟨2, ![M, N]⟩ : Shape).Idx) (k : D.contr.Idx) :
    (D.lhsIdx j k 1).val = (k ⟨0, by rw [D.rank_contr, hlc]; exact Nat.one_pos⟩).val :=
  D.lhsIdx_val_of_single hlc j k

theorem rhsIdx_axis0 (hrc : D.rhsContracting = [0])
    (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

theorem rhsIdx_axis1 (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  have hb : (1 : Fin (⟨2, ![K, N]⟩ : Shape).rank) ∉ D.rhsBatch := by rw [hrb]; exact List.not_mem_nil
  have hn : (1 : Fin (⟨2, ![K, N]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- The contraction of a plain product, indexed by the shared axis: rows of the left factor against columns of the right. -/
theorem plain_sum {φ₁ φ₂ : FTy} (hlc : D.lhsContracting = [1]) (hrc : D.rhsContracting = [0])
    (hln : D.lhsNonContracting = [0]) (hrn : D.rhsNonContracting = [1]) (hlb : D.lhsBatch = []) (hrb : D.rhsBatch = [])
    (a : FVec Ideal (⟨2, ![M, K]⟩ : Shape) φ₁) (b : FVec Ideal (⟨2, ![K, N]⟩ : Shape) φ₂) (p : Fin M) (q : Fin N) :
    ∑ k : D.contr.Idx, a (D.lhsIdx (ix2 p q) k) * b (D.rhsIdx (ix2 p q) k) = ∑ k : Fin K, a (ix2 p k) * b (ix2 k q) := by
  have hr : D.contr.rank = 1 := by rw [D.rank_contr, hlc]; rfl
  have hs : D.contr.size ⟨0, by omega⟩ = K := by
    rw [D.size_contr 0 (by rw [hlc]; exact Nat.one_pos)]
    simp [hlc]
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := by
    funext c; apply Fin.ext
    match c with
    | ⟨0, _⟩ => exact lhsIdx_axis0 D hlb hln _ _
    | ⟨1, _⟩ => exact (lhsIdx_axis1 D hlc _ _).trans hk
  have er : D.rhsIdx (ix2 p q) ((contrEquiv1 D K hr hs).symm k) = ix2 k q := by
    funext c; apply Fin.ext
    match c with
    | ⟨0, _⟩ => exact (rhsIdx_axis0 D hrc _ _).trans hk
    | ⟨1, _⟩ => exact rhsIdx_axis1 D hlb hln hrb hrn _ _
  rw [el, er]

theorem plainDot_apply (hlc : D.lhsContracting = [1]) (hrc : D.rhsContracting = [0])
    (hln : D.lhsNonContracting = [0]) (hrn : D.rhsNonContracting = [1]) (hlb : D.lhsBatch = []) (hrb : D.rhsBatch = [])
    (a : FVec Ideal (⟨2, ![M, K]⟩ : Shape) .f32) (b : FVec Ideal (⟨2, ![K, N]⟩ : Shape) .f32) (p : Fin M) (q : Fin N) :
    Host.dotGeneral (F := Ideal) D none a b (ix2 p q) = ∑ k : Fin K, a (ix2 p k) * b (ix2 k q) :=
  (Ideal.dotGeneral_apply D none .single a b (ix2 p q)).trans (plain_sum D hlc hrc hln hrn hlb hrb a b p q)

end PlainDot

end Cert.ReferenceIdeal.RefDot

end
-- ==== Proof.Alg.lean ====
import proofs.«406486_j8624294330992_3_alg».proof.Proof.Spec
import Mathlib.Logic.Equiv.Fin.Basic
import Mathlib.Algebra.BigOperators.Fin
import Mathlib.Algebra.BigOperators.Ring.Finset
import Mathlib.Algebra.Order.BigOperators.Group.Finset
import Mathlib.Data.Finset.Lattice.Fold
import Mathlib.Data.Finset.Fold
import Mathlib.Data.EReal.Basic
import Mathlib.Tactic.FieldSimp
import Mathlib.Tactic.Ring
import Mathlib.Tactic.Positivity

noncomputable section

open scoped BigOperators

namespace Cert.Alg

theorem exp_shift (a m m' : ℝ) : Real.exp (m - m') * Real.exp (a - m) = Real.exp (a - m') := by
  rw [← Real.exp_add]
  congr 1
  ring

theorem online_sum {ι : Type} (s : Finset ι) (a : ι → ℝ) (m m' : ℝ) :
    Real.exp (m - m') * ∑ x ∈ s, Real.exp (a x - m) = ∑ x ∈ s, Real.exp (a x - m') := by
  rw [Finset.mul_sum]
  exact Finset.sum_congr rfl fun x _ => exp_shift (a x) m m'

theorem online_wsum {ι : Type} (s : Finset ι) (a w : ι → ℝ) (m m' : ℝ) :
    Real.exp (m - m') * ∑ x ∈ s, Real.exp (a x - m) * w x = ∑ x ∈ s, Real.exp (a x - m') * w x := by
  rw [Finset.mul_sum]
  exact Finset.sum_congr rfl fun x _ => by rw [← mul_assoc, exp_shift]

theorem sum_exp_pos {J : Type} [Fintype J] [Nonempty J] (e : J → ℝ) (μ : ℝ) :
    0 < ∑ j, Real.exp (e j - μ) :=
  Finset.sum_pos (fun j _ => Real.exp_pos (e j - μ)) Finset.univ_nonempty

theorem wavg_shift {J : Type} [Fintype J] [Nonempty J] (e v : J → ℝ) (μ ν : ℝ) :
    Cert.Spec.wavg e v μ = Cert.Spec.wavg e v ν := by
  unfold Cert.Spec.wavg
  rw [← online_sum Finset.univ e μ ν, ← online_wsum Finset.univ e v μ ν,
    mul_div_mul_left _ _ (Real.exp_pos (μ - ν)).ne']

theorem wavg_normalised {J : Type} [Fintype J] [Nonempty J] (e v : J → ℝ) (μ : ℝ) :
    ∑ j, (Real.exp (e j - μ) / ∑ j', Real.exp (e j' - μ)) * v j = Cert.Spec.wavg e v μ := by
  unfold Cert.Spec.wavg
  rw [Finset.sum_div]
  exact Finset.sum_congr rfl fun j _ => by ring

theorem psum_zero {N : ℕ} (a : Fin N → ℝ) (h : 0 < N) :
    (∑ k : Fin N, if k.val ≤ 0 then a k else 0) = a ⟨0, h⟩ := by
  rw [Finset.sum_eq_single (⟨0, h⟩ : Fin N)]
  · simp
  · intro k _ hk
    have hk' : ¬ k.val ≤ 0 := fun h0 => hk (Fin.ext (Nat.le_zero.mp h0))
    rw [if_neg hk']
  · intro h'
    exact absurd (Finset.mem_univ _) h'

theorem psum_succ {N : ℕ} (a : Fin N → ℝ) (n : ℕ) (h : n + 1 < N) :
    (∑ k : Fin N, if k.val ≤ n + 1 then a k else 0)
      = (∑ k : Fin N, if k.val ≤ n then a k else 0) + a ⟨n + 1, h⟩ := by
  have hs : a ⟨n + 1, h⟩ = ∑ k : Fin N, if k.val = n + 1 then a k else 0 := by
    rw [Finset.sum_eq_single (⟨n + 1, h⟩ : Fin N)]
    · simp
    · intro k _ hk
      have hk' : ¬ k.val = n + 1 := fun e => hk (Fin.ext e)
      rw [if_neg hk']
    · intro h'
      exact absurd (Finset.mem_univ _) h'
  rw [hs, ← Finset.sum_add_distrib]
  refine Finset.sum_congr rfl fun k _ => ?_
  by_cases h1 : k.val ≤ n
  · have h2 : k.val ≤ n + 1 := by omega
    have h3 : ¬ k.val = n + 1 := by omega
    rw [if_pos h1, if_pos h2, if_neg h3, add_zero]
  · by_cases h3 : k.val = n + 1
    · have h2 : k.val ≤ n + 1 := by omega
      rw [if_neg h1, if_pos h2, if_pos h3, zero_add]
    · have h2 : ¬ k.val ≤ n + 1 := by omega
      rw [if_neg h1, if_neg h2, if_neg h3, add_zero]

theorem psum_all {N : ℕ} (a : Fin N → ℝ) (n : ℕ) (h : N ≤ n + 1) :
    (∑ k : Fin N, if k.val ≤ n then a k else 0) = ∑ k, a k :=
  Finset.sum_congr rfl fun k _ => if_pos (by have := k.isLt; omega)

def keyOf (k : Fin 8) (jj : Fin 1024) : Fin 8192 := ⟨1024 * k.val + jj.val, by omega⟩

theorem sum_tiles (f : Fin 8192 → ℝ) :
    ∑ k : Fin 8, ∑ jj : Fin 1024, f (keyOf k jj) = ∑ j : Fin 8192, f j := by
  rw [← Fintype.sum_prod_type' (f := fun k jj => f (keyOf k jj))]
  refine Fintype.sum_equiv (finProdFinEquiv (m := 8) (n := 1024)) _ _ fun x => ?_
  congr 1
  apply Fin.ext
  simp only [keyOf, finProdFinEquiv_apply_val]
  omega

theorem coe_sum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem div_coe_coe (a b : ℝ) (hb : b ≠ 0) :
    Idealize.ShloMosaic.Ideal.div (a : EReal) (b : EReal) = ((a / b : ℝ) : EReal) := by
  rw [Idealize.ShloMosaic.Ideal.div_coe hb, ← EReal.coe_mul, mul_one_div]

theorem exp_coe' (r : ℝ) : Idealize.ShloMosaic.Ideal.exp (r : EReal) = ((Real.exp r : ℝ) : EReal) := rfl

theorem sup_coe {ι : Type} (s : Finset ι) (hs : s.Nonempty) (f : ι → ℝ) :
    s.sup (fun i => (f i : EReal)) = ((s.sup' hs f : ℝ) : EReal) := by
  rw [← Finset.sup'_eq_sup hs]
  exact (Finset.comp_sup'_eq_sup'_comp hs (fun x : ℝ => (x : EReal)) fun x y => (coe_max x y).symm).symm

theorem fold_max_coe {ι : Type} (s : Finset ι) (hs : s.Nonempty) (f : ι → ℝ) :
    s.fold max (⊥ : EReal) (fun i => (f i : EReal)) = ((s.sup' hs f : ℝ) : EReal) :=
  sup_coe s hs f

theorem coe_sum_of_eq {ι : Type} (s : Finset ι) (x : ι → EReal) (f : ι → ℝ)
    (hx : ∀ i ∈ s, x i = (f i : EReal)) : ∑ i ∈ s, x i = ((∑ i ∈ s, f i : ℝ) : EReal) := by
  rw [Finset.sum_congr rfl hx, coe_sum]

theorem fold_max_coe_of_eq {ι : Type} (s : Finset ι) (hs : s.Nonempty) (x : ι → EReal) (f : ι → ℝ)
    (hx : ∀ i ∈ s, x i = (f i : EReal)) :
    s.fold max (⊥ : EReal) x = ((s.sup' hs f : ℝ) : EReal) := by
  rw [Finset.fold_congr (g := fun i => (f i : EReal)) hx]
  exact fold_max_coe s hs f

theorem max_bot_coe (r : ℝ) : max (⊥ : EReal) (r : EReal) = (r : EReal) :=
  max_eq_right bot_le

theorem exp_bot_sub_coe (r : ℝ) :
    Idealize.ShloMosaic.Ideal.exp ((⊥ : EReal) - (r : EReal)) = 0 := by
  rw [EReal.bot_sub]
  rfl

theorem psum_rescale_succ {N : ℕ} (T : Fin N → ℝ → ℝ) (c μ μ' : ℝ) (hT : ∀ k, c * T k μ = T k μ')
    (n : ℕ) (h : n + 1 < N) :
    c * (∑ k : Fin N, if k.val ≤ n then T k μ else 0) + T ⟨n + 1, h⟩ μ'
      = ∑ k : Fin N, if k.val ≤ n + 1 then T k μ' else 0 := by
  rw [psum_succ (fun k => T k μ') n h, Finset.mul_sum]
  congr 1
  refine Finset.sum_congr rfl fun k _ => ?_
  by_cases h1 : k.val ≤ n
  · rw [if_pos h1, if_pos h1, hT]
  · rw [if_neg h1, if_neg h1, mul_zero]

theorem wavg_tiles (e v : Fin 8192 → ℝ) (μ : ℝ) :
    (∑ k : Fin 8, ∑ jj : Fin 1024, Real.exp (e (keyOf k jj) - μ) * v (keyOf k jj))
        / (∑ k : Fin 8, ∑ jj : Fin 1024, Real.exp (e (keyOf k jj) - μ))
      = Cert.Spec.wavg e v 0 := by
  rw [sum_tiles (fun j => Real.exp (e j - μ) * v j), sum_tiles (fun j => Real.exp (e j - μ))]
  exact wavg_shift e v μ 0

theorem sum_tiles_exp_pos (e : Fin 8192 → ℝ) (μ : ℝ) :
    0 < ∑ k : Fin 8, ∑ jj : Fin 1024, Real.exp (e (keyOf k jj) - μ) := by
  rw [sum_tiles (fun j => Real.exp (e j - μ))]
  exact sum_exp_pos e μ

end Cert.Alg

end
-- ==== Proof.RefSoft.lean ====
import proofs.«406486_j8624294330992_3_alg».proof.Proof.RefRun
import proofs.«406486_j8624294330992_3_alg».proof.Proof.Spec
import proofs.«406486_j8624294330992_3_alg».proof.Proof.Consts
import proofs.«406486_j8624294330992_3_alg».proof.Proof.Alg
import proofs.«406486_j8624294330992_3_alg».proof.Proof.RefDot
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.ReferenceIdeal.RefSoft

open Cert.ReferenceIdeal Cert.ReferenceIdeal.Gen Idealize.ShloMosaic Idealize.ShloMosaic.ValueIdx

section Stages
variable {F : FTy → Type} [FloatOps F]

def softM (E : FVec F S8192x8192 .f32) : FVec F S8192 .f32 :=
  maximumf (broadcastInDim S8192 ![] bcast_S_S8192 (constant (F := F) S_ .f32 0xFF800000#32))
    (Host.reduce FloatOps.maximumf E (constant (F := F) S_ .f32 0xFF800000#32)
      reducesTo_S8192x8192_S8192_d1 h_S_)

def softP (E : FVec F S8192x8192 .f32) : FVec F S8192x8192 .f32 :=
  Host.exp (F := F)
    (subf E
      (broadcastInDim S8192x8192 ![0, 1] bcast_S8192x1_S8192x8192_0_1
        (broadcastInDim S8192x1 ![0] bcast_S8192_S8192x1_0 (softM E))))

def softL (E : FVec F S8192x8192 .f32) : FVec F S8192 .f32 :=
  Host.reduceAdd (F := F) (softP E) (constant (F := F) S_ .f32 0x00000000#32)
    reducesTo_S8192x8192_S8192_d1 h_S_

def softA (E : FVec F S8192x8192 .f32) : FVec F S8192x8192 .f32 :=
  Host.divf (F := F) (softP E)
    (broadcastInDim S8192x8192 ![0, 1] bcast_S8192x1_S8192x8192_0_1
      (broadcastInDim S8192x1 ![0] bcast_S8192_S8192x1_0 (softL E)))

def softTerm (E : FVec F S8192x8192 .f32) (Vv : FVec F S8192x512 .f32) : FVec F S8192x512 .f32 :=
  Host.dotGeneral (F := F) dot_S8192x8192_S8192x512_S8192x512_1_0_0_1_n_n none (softA E) Vv

theorem refTerm_eq_soft (a0 a1 : FVec F S8192x512 .f32) (a2 a3 a4 : FVec F S512x512 .f32) :
    RefRun.refTerm a0 a1 a2 a3 a4 = softTerm (RefRun.stE a0 a1 a2 a3) (RefRun.stV a0 a4) := rfl

end Stages

theorem reduces_rows : S8192x8192.Reduces [1] S8192 := by decide

theorem lift_row (p k : Fin 8192) : reduces_rows.lift (ix1 p) k = ix2 p k := by
  funext c
  apply Fin.ext
  match c with
  | ⟨0, _⟩ => rfl
  | ⟨1, _⟩ => rfl

theorem bcast_rows_apply {α : Type} (x : S8192.Idx → α) (p j : Fin 8192) :
    broadcastInDim S8192x8192 ![0, 1] bcast_S8192x1_S8192x8192_0_1
        (broadcastInDim S8192x1 ![0] bcast_S8192_S8192x1_0 x) (ix2 p j) = x (ix1 p) := by
  rw [broadcastInDim_apply _ _ _ _ (ix2 p (0 : Fin 1)) (fun a => by
        match a with
        | ⟨0, _⟩ => rfl
        | ⟨1, _⟩ => rfl),
    broadcastInDim_apply _ _ _ _ (ix1 p) (fun a => by
        match a with
        | ⟨0, _⟩ => rfl)]

section Value
variable (E : FVec Ideal S8192x8192 .f32) (e : Fin 8192 → Fin 8192 → ℝ)
  (he : ∀ i j, E (ix2 i j) = ((e i j : ℝ) : EReal))

def rowMax (e : Fin 8192 → Fin 8192 → ℝ) (p : Fin 8192) : ℝ :=
  Finset.univ.sup' Finset.univ_nonempty fun j => e p j

def rowSum (e : Fin 8192 → Fin 8192 → ℝ) (p : Fin 8192) : ℝ :=
  ∑ j : Fin 8192, Real.exp (e p j - rowMax e p)

include he in
theorem softM_apply (p : Fin 8192) : softM (F := Ideal) E (ix1 p) = ((rowMax e p : ℝ) : EReal) := by
  unfold softM
  rw [maximumf_apply, broadcastInDim_scalar_apply, constant_apply, Cert.Consts.ofBits_neg_inf,
    Host.reduce_eq_fold_single FloatOps.maximumf E _ reducesTo_S8192x8192_S8192_d1 reduces_rows h_S_ (ix1 p),
    constant_apply, Cert.Consts.ofBits_neg_inf]
  have hfold : (Finset.univ : Finset (Fin (S8192x8192.size 1))).fold FloatOps.maximumf (⊥ : EReal)
        (E ∘ reduces_rows.lift (ix1 p)) = ((rowMax e p : ℝ) : EReal) :=
    Cert.Alg.fold_max_coe_of_eq (Finset.univ : Finset (Fin 8192)) Finset.univ_nonempty _ (fun j => e p j)
      (fun k _ => by
        show E (reduces_rows.lift (ix1 p) k) = _
        rw [lift_row, he])
  rw [hfold]
  exact Cert.Alg.max_bot_coe _

include he in
theorem softP_apply (p j : Fin 8192) :
    softP (F := Ideal) E (ix2 p j) = ((Real.exp (e p j - rowMax e p) : ℝ) : EReal) := by
  unfold softP
  show Ideal.exp ((subf E _) (ix2 p j)) = _
  rw [subf_apply, bcast_rows_apply, softM_apply E e he p, he, ← EReal.coe_sub]
  rfl

include he in
theorem softL_apply (p : Fin 8192) : softL (F := Ideal) E (ix1 p) = ((rowSum e p : ℝ) : EReal) := by
  unfold softL
  rw [hostReduceAdd_apply, Ideal.hostReduceAdd_single reducesTo_S8192x8192_S8192_d1 reduces_rows, constant_apply,
    Cert.Consts.ofBits_zero, zero_add]
  exact Cert.Alg.coe_sum_of_eq (Finset.univ : Finset (Fin 8192)) _ (fun j => Real.exp (e p j - rowMax e p))
    (fun k _ => by rw [lift_row, softP_apply E e he])

theorem rowSum_pos (p : Fin 8192) : 0 < rowSum e p :=
  Cert.Alg.sum_exp_pos (fun j => e p j) (rowMax e p)

include he in
theorem softA_apply (p j : Fin 8192) :
    softA (F := Ideal) E (ix2 p j) = ((Real.exp (e p j - rowMax e p) / rowSum e p : ℝ) : EReal) := by
  unfold softA
  rw [hostDivf_apply, bcast_rows_apply, softP_apply E e he, softL_apply E e he,
    Cert.Alg.div_coe_coe _ _ (rowSum_pos e p).ne']

end Value

theorem softTerm_apply (E : FVec Ideal S8192x8192 .f32) (Vv : FVec Ideal S8192x512 .f32)
    (e : Fin 8192 → Fin 8192 → ℝ) (he : ∀ i j, E (ix2 i j) = ((e i j : ℝ) : EReal))
    (w : Fin 8192 → Fin 512 → ℝ) (hw : ∀ j d, Vv (ix2 j d) = ((w j d : ℝ) : EReal))
    (p : Fin 8192) (q : Fin 512) :
    softTerm (F := Ideal) E Vv (ix2 p q)
      = ((Cert.Spec.wavg (fun j => e p j) (fun j => w j q) 0 : ℝ) : EReal) := by
  unfold softTerm
  rw [Cert.ReferenceIdeal.RefDot.plainDot_apply dot_S8192x8192_S8192x512_S8192x512_1_0_0_1_n_n rfl rfl rfl rfl rfl rfl,
    Cert.Alg.coe_sum_of_eq (Finset.univ : Finset (Fin 8192)) _
      (fun j => Real.exp (e p j - rowMax e p) / rowSum e p * w j q)
      (fun k _ => by rw [softA_apply E e he, hw, ← EReal.coe_mul])]
  exact congrArg (fun x : ℝ => (x : EReal))
    ((Cert.Alg.wavg_normalised (fun j => e p j) (fun j => w j q) (rowMax e p)).trans
      (Cert.Alg.wavg_shift (fun j => e p j) (fun j => w j q) (rowMax e p) 0))

end Cert.ReferenceIdeal.RefSoft

end
-- ==== Proof.RefVal.lean ====
import proofs.«406486_j8624294330992_3_alg».proof.Proof.RefRun
import proofs.«406486_j8624294330992_3_alg».proof.Proof.RefDot
import proofs.«406486_j8624294330992_3_alg».proof.Proof.RefSoft
import proofs.«406486_j8624294330992_3_alg».proof.Proof.Spec
import proofs.«406486_j8624294330992_3_alg».proof.Proof.Consts
import proofs.«406486_j8624294330992_3_alg».proof.Proof.Alg
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RefVal

open Cert.ReferenceIdeal Cert.ReferenceIdeal.Gen Idealize.ShloMosaic Idealize.ShloMosaic.ValueIdx
open Cert.ReferenceIdeal.RefDot

theorem proj_apply (x : Fin 8192 → Fin 512 → ℝ) (w : Fin 512 → Fin 512 → ℝ)
    (a : FVec Ideal S8192x512 .f32) (b : FVec Ideal S512x512 .f32)
    (ha : ∀ (p : Fin 8192) (k : Fin 512), a (ix2 p k) = ((x p k : ℝ) : EReal))
    (hb : ∀ (k d : Fin 512), b (ix2 k d) = ((w k d : ℝ) : EReal)) (p : Fin 8192) (d : Fin 512) :
    Host.dotGeneral (F := Ideal) dot_S8192x512_S512x512_S8192x512_1_0_0_1_n_n none a b (ix2 p d)
      = ((Cert.Spec.proj x w p d : ℝ) : EReal) := by
  rw [plainDot_apply _ rfl rfl rfl rfl rfl rfl]
  unfold Cert.Spec.proj
  rw [← Cert.Alg.coe_sum]
  exact Finset.sum_congr rfl fun k _ => by rw [ha, hb, EReal.coe_mul]

section Stages

variable (x1 x2 : Fin 8192 → Fin 512 → ℝ) (wq wk wv : Fin 512 → Fin 512 → ℝ)
  (a0 a1 : FVec Ideal S8192x512 .f32) (a2 a3 a4 : FVec Ideal S512x512 .f32)
  (h0 : ∀ (p : Fin 8192) (q : Fin 512), a0 (ValueIdx.ix2 p q) = ((x1 p q : ℝ) : EReal))
  (h1 : ∀ (p : Fin 8192) (q : Fin 512), a1 (ValueIdx.ix2 p q) = ((x2 p q : ℝ) : EReal))
  (h2 : ∀ (p q : Fin 512), a2 (ValueIdx.ix2 p q) = ((wq p q : ℝ) : EReal))
  (h3 : ∀ (p q : Fin 512), a3 (ValueIdx.ix2 p q) = ((wk p q : ℝ) : EReal))
  (h4 : ∀ (p q : Fin 512), a4 (ValueIdx.ix2 p q) = ((wv p q : ℝ) : EReal))

include h0 h2 in
theorem stQ_apply (p : Fin 8192) (d : Fin 512) :
    RefRun.stQ (F := Ideal) a0 a2 (ix2 p d) = ((Cert.Spec.proj x1 wq p d : ℝ) : EReal) := by
  unfold RefRun.stQ
  exact proj_apply x1 wq a0 a2 h0 h2 p d

include h0 h4 in
theorem stV_apply (j : Fin 8192) (d : Fin 512) :
    RefRun.stV (F := Ideal) a0 a4 (ix2 j d) = ((Cert.Spec.proj x1 wv j d : ℝ) : EReal) := by
  unfold RefRun.stV
  exact proj_apply x1 wv a0 a4 h0 h4 j d

include h1 h3 in
theorem stK_apply (j : Fin 8192) (d : Fin 512) :
    RefRun.stK (F := Ideal) a1 a3 (ix2 j d) = ((Cert.Spec.proj x2 wk j d : ℝ) : EReal) := by
  unfold RefRun.stK
  exact proj_apply x2 wk a1 a3 h1 h3 j d

include h1 h3 in
theorem stKT_apply (d : Fin 512) (j : Fin 8192) :
    RefRun.stKT (F := Ideal) a1 a3 (ix2 d j) = ((Cert.Spec.proj x2 wk j d : ℝ) : EReal) := by
  unfold RefRun.stKT
  rw [transpose_ix2_apply]
  exact stK_apply x2 wk a1 a3 h1 h3 j d

include h0 h1 h2 h3 in
theorem stS_apply (p j : Fin 8192) :
    RefRun.stS (F := Ideal) a0 a1 a2 a3 (ix2 p j)
      = ((∑ d : Fin 512, Cert.Spec.proj x1 wq p d * Cert.Spec.proj x2 wk j d : ℝ) : EReal) := by
  unfold RefRun.stS
  rw [plainDot_apply _ rfl rfl rfl rfl rfl rfl, ← Cert.Alg.coe_sum]
  exact Finset.sum_congr rfl fun d _ => by
    rw [stQ_apply x1 wq a0 a2 h0 h2 p d, stKT_apply x2 wk a1 a3 h1 h3 d j, EReal.coe_mul]

theorem lrelu_select (s : ℝ) :
    Scalar.select (FloatOps.cmpf (F := Ideal) (φ := .f32) .oge ((s : ℝ) : EReal) (0 : EReal)) ((s : ℝ) : EReal)
        (((Cert.Consts.slope : ℝ) : EReal) * ((s : ℝ) : EReal))
      = ((Cert.Spec.lrelu Cert.Consts.slope s : ℝ) : EReal) := by
  rw [Cert.Spec.lrelu_eq_of_le, Ideal.cmpf_def]
  by_cases h : 0 ≤ s
  · have hc : Ideal.cmp .oge ((s : ℝ) : EReal) (0 : EReal) = 1#1 := by
      have : (0 : EReal) ≤ ((s : ℝ) : EReal) := EReal.coe_nonneg.mpr h
      simp [Ideal.cmp, this]
    rw [hc, select_one, if_pos h]
  · have hc : Ideal.cmp .oge ((s : ℝ) : EReal) (0 : EReal) = 0#1 := by
      have : ¬ (0 : EReal) ≤ ((s : ℝ) : EReal) := fun h' => h (EReal.coe_nonneg.mp h')
      simp [Ideal.cmp, this]
    rw [hc, select_zero, if_neg h, EReal.coe_mul]

include h0 h1 h2 h3 in
theorem stE_apply (i j : Fin 8192) :
    RefRun.stE (F := Ideal) a0 a1 a2 a3 (ix2 i j)
      = ((Cert.Spec.score Cert.Consts.slope (Cert.Spec.proj x1 wq) (Cert.Spec.proj x2 wk) i j : ℝ) : EReal) := by
  unfold RefRun.stE
  rw [select_apply, cmpf_apply, mulf_apply, broadcastInDim_scalar_apply, broadcastInDim_scalar_apply,
    stS_apply x1 x2 wq wk a0 a1 a2 a3 h0 h1 h2 h3 i j]
  show Scalar.select (FloatOps.cmpf .oge _ (Ideal.ofBits .f32 0x00000000#32)) _ (Ideal.ofBits .f32 0x3C23D70A#32 * _) = _
  rw [Cert.Consts.ofBits_zero, Cert.Consts.ofBits_slope]
  exact lrelu_select _

end Stages

theorem refTerm_apply (x1 x2 : Fin 8192 → Fin 512 → ℝ) (wq wk wv : Fin 512 → Fin 512 → ℝ)
    (a0 a1 : FVec Ideal S8192x512 .f32) (a2 a3 a4 : FVec Ideal S512x512 .f32)
    (h0 : ∀ (p : Fin 8192) (q : Fin 512), a0 (ValueIdx.ix2 p q) = ((x1 p q : ℝ) : EReal))
    (h1 : ∀ (p : Fin 8192) (q : Fin 512), a1 (ValueIdx.ix2 p q) = ((x2 p q : ℝ) : EReal))
    (h2 : ∀ (p q : Fin 512), a2 (ValueIdx.ix2 p q) = ((wq p q : ℝ) : EReal))
    (h3 : ∀ (p q : Fin 512), a3 (ValueIdx.ix2 p q) = ((wk p q : ℝ) : EReal))
    (h4 : ∀ (p q : Fin 512), a4 (ValueIdx.ix2 p q) = ((wv p q : ℝ) : EReal))
    (p : Fin 8192) (q : Fin 512) :
    RefRun.refTerm (F := Ideal) a0 a1 a2 a3 a4 (ValueIdx.ix2 p q)
      = ((Cert.Spec.attn Cert.Consts.slope x1 x2 wq wk wv p q : ℝ) : EReal) := by
  rw [RefSoft.refTerm_eq_soft]
  exact RefSoft.softTerm_apply _ _
    (fun i j => Cert.Spec.score Cert.Consts.slope (Cert.Spec.proj x1 wq) (Cert.Spec.proj x2 wk) i j)
    (stE_apply x1 x2 wq wk a0 a1 a2 a3 h0 h1 h2 h3)
    (fun j d => Cert.Spec.proj x1 wv j d) (stV_apply x1 wv a0 a4 h0 h4) p q

end Cert.ReferenceIdeal.RefVal

end
-- ==== Proof.K.Reg0.lean ====
import proofs.«406486_j8624294330992_3_alg».proof.Proof.Gen.Kernel.Launch
import proofs.«406486_j8624294330992_3_alg».proof.Proof.Gen.Kernel.Skeleton
import proofs.«406486_j8624294330992_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev actRect : Rect S2048x512 := Rect.unit (s := S2048x512) ![0, 0] S2048x512.size inb_S2048x512_S2048x512_0_0
abbrev wtRect : Rect S512x512 := Rect.unit (s := S512x512) ![0, 0] S512x512.size inb_S512x512_S512x512_0_0

def out0_5 (x0 : Vec F S2048x512 .bf16) (x2 : Vec F S512x512 .bf16) : Vec F S2048x512 .bf16 :=
  View.canon [⟨actRect, k0_pay2 (View.ld x0 actRect) (View.ld x2 wtRect)⟩]

def out0_6 (x1 : Vec F S2048x512 .bf16) (x3 : Vec F S512x512 .bf16) : Vec F S2048x512 .bf16 :=
  View.canon [⟨actRect, k0_pay3 (View.ld x1 actRect) (View.ld x3 wtRect)⟩]

def out0_7 (x0 : Vec F S2048x512 .bf16) (x4 : Vec F S512x512 .bf16) : Vec F S2048x512 .bf16 :=
  View.canon [⟨actRect, k0_pay4 (View.ld x0 actRect) (View.ld x4 wtRect)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 2 t)
    | ⟨6, _⟩ => out0_6 (iblk0 V c 1 t) (iblk0 V c 3 t)
    | ⟨7, _⟩ => out0_7 (iblk0 V c 0 t) (iblk0 V c 4 t)
  Φ _ := Pipeline.ΦA spec0 c
  q _ := fullShare
  owed _ := 0

theorem cover0_act (p0 : Vec F S2048x512 .bf16) (y : S2048x512.Idx) :
    ∃ pc ∈ ([⟨actRect, p0⟩] : List (View.Piece (Elt F) S2048x512 .bf16)), y ∈ pc.1.set :=
  View.cover_of_tiled [⟨actRect, p0⟩] S2048x512.size (by rfl) y

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 1 t) (iblk0 V c 3 t) := by dsimp only [dat0]
theorem after0_7 (c : Dev nD) (t : Fin cfg0.N) : (dat0 V c).after 7 t = out0_7 (iblk0 V c 0 t) (iblk0 V c 4 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

set_option maxHeartbeats 1000000 in
theorem sound_kernel0 (c : Dev nD) (E : Set ℕ) (i : grid0.Coords) (arg1 : Memref sig .tc .vmem S2048x512 .bf16) (harg1 : arg1.IsWhole) (arg2 : Memref sig .tc .vmem S2048x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .bf16) (harg8 : arg8.IsWhole)
    (x0 x1 : Vec F S2048x512 .bf16) (x2 x3 x4 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x2) ∗ owns (c : Thread nD τ) arg7 fullShare (out0_6 x1 x3) ∗ owns (c : Thread nD τ) arg8 fullShare (out0_7 x0 x4)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_act _)
  isplitl [H7]
  · iexists _; isplitr
    swap; · iexact H7
    ipureintro
    exact View.read_writes_eq_canon _ _ _ (cover0_act _)
  iexists _; isplitr
  swap; · iexact H8
  ipureintro
  exact View.read_writes_eq_canon _ _ _ (cover0_act _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) _)
  iframe H0 H1 H2 H3 H4
  isplitl [H5]; · iexists _; iexact H5
  isplitl [H6]; · iexists _; iexact H6
  isplitl [H7]; · iexists _; iexact H7
  iintro ⟨H0, H1, H2, H3, H4, H5, H6, H7⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Base.lean ====
import proofs.«406486_j8624294330992_3_alg».proof.Proof.Gen.Kernel.Launch
import proofs.«406486_j8624294330992_3_alg».proof.Proof.Gen.Kernel.Skeleton
import proofs.«406486_j8624294330992_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel

theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

abbrev VO1_3 : View sig .tc .vmem S1024x512 .f32 := (Memref.whole cc1_stg3_0 : Memref sig .tc .vmem S1024x512 .f32).view

abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

abbrev scM1_0 : Memref sig .tc .vmem S1024x1 .f32 := Memref.whole cc1_scratch0

abbrev scM1_1 : Memref sig .tc .vmem S1024x1 .f32 := Memref.whole cc1_scratch1

abbrev scM1_2 : Memref sig .tc .vmem S1024x512 .f32 := Memref.whole cc1_scratch2

abbrev VS1_0 : View sig .tc .vmem S1024x1 .f32 := scM1_0.view
abbrev VS1_1 : View sig .tc .vmem S1024x1 .f32 := scM1_1.view
abbrev VS1_2 : View sig .tc .vmem S1024x512 .f32 := scM1_2.view

abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

def invAny1 (c : Dev nD) : sProp 𝕄 :=
  iprop((((∃ d, owns (c : Thread nD τ) scM1_0 fullShare d) ∗ (∃ d, owns (c : Thread nD τ) scM1_1 fullShare d) ∗ (∃ d, owns (c : Thread nD τ) scM1_2 fullShare d)) ∗ rest1 c)
    ∗ (∃ r, prngReg c r))

theorem PhiA1_eq (c : Dev nD) : (Pipeline.ΦA spec1 c : sProp 𝕄) = invAny1 c := by
  unfold Pipeline.ΦA invAny1 rest1
  rw [Pipeline.scopedRest_split_of_list spec1 c [cc1_scratch0, cc1_scratch1, cc1_scratch2] (by decide) (by decide)]
  simp only [scM1_0, scM1_1, scM1_2, owns_whole]; try rfl

end Cert.Kernel.Hand

end
-- ==== Proof.K.Reg1RunA.lean ====
import proofs.«406486_j8624294330992_3_alg».proof.Proof.K.Reg1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole)
    (arg5 : Memref sig .tc .vmem S1024x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .f32) (harg8 : arg8.IsWhole)
    (hc0 : cond1_0 i) (hc1 : ¬cond1_1 i) (x0 x1 x2 : Vec F S1024x512 .bf16) :
    Σ' (L3 : List (View.Piece (Elt F) S1024x512 .f32)) (LS0 : List (View.Piece (Elt F) S1024x1 .f32)) (LS1 : List (View.Piece (Elt F) S1024x1 .f32)),
      { LS2 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.Reg1RunB.lean ====
import proofs.«406486_j8624294330992_3_alg».proof.Proof.K.Reg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole)
    (arg5 : Memref sig .tc .vmem S1024x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .f32) (harg8 : arg8.IsWhole)
    (hc0 : ¬cond1_0 i) (hc1 : ¬cond1_1 i) (x0 x1 x2 : Vec F S1024x512 .bf16) (xs0 xs1 : Vec F S1024x1 .f32) (xs2 : Vec F S1024x512 .f32) :
    Σ' (L3 : List (View.Piece (Elt F) S1024x512 .f32)) (LS0 : List (View.Piece (Elt F) S1024x1 .f32)) (LS1 : List (View.Piece (Elt F) S1024x1 .f32)),
      { LS2 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.K.Reg1RunC.lean ====
import proofs.«406486_j8624294330992_3_alg».proof.Proof.K.Reg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole)
    (arg5 : Memref sig .tc .vmem S1024x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .f32) (harg8 : arg8.IsWhole)
    (hc0 : ¬cond1_0 i) (hc1 : cond1_1 i) (x0 x1 x2 : Vec F S1024x512 .bf16) (xs0 xs1 : Vec F S1024x1 .f32) (xs2 : Vec F S1024x512 .f32) :
    Σ' (L3 : List (View.Piece (Elt F) S1024x512 .f32)) (LS0 : List (View.Piece (Elt F) S1024x1 .f32)) (LS1 : List (View.Piece (Elt F) S1024x1 .f32)),
      { LS2 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Reg1.lean ====
import proofs.«406486_j8624294330992_3_alg».proof.Proof.K.Reg1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the output block, the running maximum, the running sum and the accumulator hold once the listed stores are done. -/
def readBack {p : List (View.Piece (Elt F) S1024x512 .f32) → List (View.Piece (Elt F) S1024x1 .f32) → List (View.Piece (Elt F) S1024x1 .f32) → List (View.Piece (Elt F) S1024x512 .f32) → Prop}
    (r : Σ' (L3 : List (View.Piece (Elt F) S1024x512 .f32)) (LS0 : List (View.Piece (Elt F) S1024x1 .f32)) (LS1 : List (View.Piece (Elt F) S1024x1 .f32)), { LS2 : List (View.Piece (Elt F) S1024x512 .f32) // p L3 LS0 LS1 LS2 }) : Vec F S1024x512 .f32 × Vec F S1024x1 .f32 × Vec F S1024x1 .f32 × Vec F S1024x512 .f32 :=
  (VO1_3.read (Elt F) (VO1_3.writes (Elt F) VO1_3.junk r.1), VS1_0.read (Elt F) (VS1_0.writes (Elt F) VS1_0.junk r.2.1),
    VS1_1.read (Elt F) (VS1_1.writes (Elt F) VS1_1.junk r.2.2.1), VS1_2.read (Elt F) (VS1_2.writes (Elt F) VS1_2.junk r.2.2.2.1))

section
variable (c : Dev nD) (i : grid1.Coords) (arg2 : Memref sig .tc .vmem S1024x512 .bf16) (harg2 : arg2.IsWhole) (arg3 : Memref sig .tc .vmem S1024x512 .bf16) (harg3 : arg3.IsWhole)
  (arg4 : Memref sig .tc .vmem S1024x512 .bf16) (harg4 : arg4.IsWhole) (arg5 : Memref sig .tc .vmem S1024x512 .f32) (harg5 : arg5.IsWhole) (arg6 : Memref sig .tc .vmem S1024x1 .f32) (harg6 : arg6.IsWhole)
  (arg7 : Memref sig .tc .vmem S1024x1 .f32) (harg7 : arg7.IsWhole) (arg8 : Memref sig .tc .vmem S1024x512 .f32) (harg8 : arg8.IsWhole)
  (x0 x1 x2 : Vec F S1024x512 .bf16) (xs0 xs1 : Vec F S1024x1 .f32) (xs2 : Vec F S1024x512 .f32)

/-- Every store is of a whole buffer, so the stores cover it. -/
theorem cover1_A (hc0 : cond1_0 i) (hc1 : ¬cond1_1 i) :
    (∀ y : S1024x1.Idx, ∃ pc ∈ (kernelRun1_A c i arg2 harg2 arg3 harg3 arg4 harg4 arg5 harg5 arg6 harg6 arg7 harg7 arg8 harg8 hc0 hc1 x0 x1 x2).2.1, y ∈ pc.1.set)
    ∧ (∀ y : S1024x1.Idx, ∃ pc ∈ (kernelRun1_A c i arg2 harg2 arg3 harg3 arg4 harg4 arg5 harg5 arg6 harg6 arg7 harg7 arg8 harg8 hc0 hc1 x0 x1 x2).2.2.1, y ∈ pc.1.set)
    ∧ ∀ y : S1024x512.Idx, ∃ pc ∈ (kernelRun1_A c i arg2 harg2 arg3 harg3 arg4 harg4 arg5 harg5 arg6 harg6 arg7 harg7 arg8 harg8 hc0 hc1 x0 x1 x2).2.2.2.1, y ∈ pc.1.set :=
  ⟨View.cover_of_tiledL _ S1024x1.size (by sl_kernel_rfl), View.cover_of_tiledL _ S1024x1.size (by sl_kernel_rfl), View.cover_of_tiledL _ S1024x512.size (by sl_kernel_rfl)⟩

theorem cover1_B (hc0 : ¬cond1_0 i) (hc1 : ¬cond1_1 i) :
    (∀ y : S1024x1.Idx, ∃ pc ∈ (kernelRun1_B c i arg2 harg2 arg3 harg3 arg4 harg4 arg5 harg5 arg6 harg6 arg7 harg7 arg8 harg8 hc0 hc1 x0 x1 x2 xs0 xs1 xs2).2.1, y ∈ pc.1.set)
    ∧ (∀ y : S1024x1.Idx, ∃ pc ∈ (kernelRun1_B c i arg2 harg2 arg3 harg3 arg4 harg4 arg5 harg5 arg6 harg6 arg7 harg7 arg8 harg8 hc0 hc1 x0 x1 x2 xs0 xs1 xs2).2.2.1, y ∈ pc.1.set)
    ∧ ∀ y : S1024x512.Idx, ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  ⟨View.cover_of_tiledL _ S1024x1.size (by sl_kernel_rfl), View.cover_of_tiledL _ S1024x1.size (by sl_kernel_rfl), View.cover_of_tiledL _ S1024x512.size (by sl_kernel_rfl)⟩

theorem cover1_C (hc0 : ¬cond1_0 i) (hc1 : cond1_1 i) :
    (∀ y : S1024x1.Idx, ∃ pc ∈ (kernelRun1_C c i arg2 harg2 arg3 harg3 arg4 harg4 arg5 harg5 arg6 harg6 arg7 harg7 arg8 harg8 hc0 hc1 x0 x1 x2 xs0 xs1 xs2).2.1, y ∈ pc.1.set)
    ∧ (∀ y : S1024x1.Idx, ∃ pc ∈ (kernelRun1_C c i arg2 harg2 arg3 harg3 arg4 harg4 arg5 harg5 arg6 harg6 arg7 harg7 arg8 harg8 hc0 hc1 x0 x1 x2 xs0 xs1 xs2).2.2.1, y ∈ pc.1.set)
    ∧ (∀ y : S1024x512.Idx, ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set)
    ∧ ∀ y : S1024x512.Idx, ∃ pc ∈ (kernelRun1_C c i arg2 harg2 arg3 harg3 arg4 harg4 arg5 harg5 arg6 harg6 arg7 harg7 arg8 harg8 hc0 hc1 x0 x1 x2 xs0 xs1 xs2).1, y ∈ pc.1.set :=
  ⟨View.cover_of_tiledL _ S1024x1.size (by sl_kernel_rfl), View.cover_of_tiledL _ S1024x1.size (by sl_kernel_rfl), View.cover_of_tiledL _ S1024x512.size (by sl_kernel_rfl),
    View.cover_of_tiledL _ S1024x512.size (by sl_kernel_rfl)⟩

end

abbrev runA (c : Dev nD) (t : Fin cfg1.N) (h0 : t.val % 8 = 0) (h1 : ¬t.val % 8 = 7) :=
  kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)
abbrev runB (c : Dev nD) (t : Fin cfg1.N) (h0 : ¬t.val % 8 = 0) (h1 : ¬t.val % 8 = 7) (prev : Vec F S1024x512 .f32 × Vec F S1024x1 .f32 × Vec F S1024x1 .f32 × Vec F S1024x512 .f32) :=
  kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) prev.2.1 prev.2.2.1 prev.2.2.2
abbrev runC (c : Dev nD) (t : Fin cfg1.N) (h0 : ¬t.val % 8 = 0) (h1 : t.val % 8 = 7) (prev : Vec F S1024x512 .f32 × Vec F S1024x1 .f32 × Vec F S1024x1 .f32 × Vec F S1024x512 .f32) :=
  kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) prev.2.1 prev.2.2.1 prev.2.2.2

/-- The four after point `n = 8 * qi + ki`: reset and updated where `ki = 0`, updated from the point before elsewhere, the quotient stored where `ki = 7`. -/
def outsAt1 (c : Dev nD) : (n : ℕ) → n < cfg1.N → Vec F S1024x512 .f32 × Vec F S1024x1 .f32 × Vec F S1024x1 .f32 × Vec F S1024x512 .f32
  | 0, hn => readBack (runA V c ⟨0, hn⟩ (show 0 % 8 = 0 from rfl) (show ¬0 % 8 = 7 by decide))
  | n + 1, hn =>
    if h0 : (n + 1) % 8 = 0 then readBack (runA V c ⟨n + 1, hn⟩ h0 (show ¬(n + 1) % 8 = 7 by omega))
    else if h1 : (n + 1) % 8 = 7 then readBack (runC V c ⟨n + 1, hn⟩ h0 h1 (outsAt1 c n (Nat.lt_of_succ_lt hn)))
    else readBack (runB V c ⟨n + 1, hn⟩ h0 h1 (outsAt1 c n (Nat.lt_of_succ_lt hn)))

theorem outsAt1_A (c : Dev nD) (t : Fin cfg1.N) (h0 : t.val % 8 = 0) (h1 : ¬t.val % 8 = 7) :
    outsAt1 V c t.val t.isLt = readBack (runA V c t h0 h1) := by
  obtain ⟨n, hn⟩ := t
  cases n with
  | zero => rfl
  | succ n => exact dif_pos h0

theorem outsAt1_B (c : Dev nD) (t : Fin cfg1.N) (h0 : ¬t.val % 8 = 0) (h1 : ¬t.val % 8 = 7) :
    outsAt1 V c t.val t.isLt = readBack (runB V c t h0 h1 (outsAt1 V c (t.val - 1) (Nat.lt_of_le_of_lt (Nat.sub_le _ _) t.isLt))) := by
  obtain ⟨n, hn⟩ := t
  cases n with
  | zero => exact absurd rfl h0
  | succ n => exact (dif_neg h0).trans (dif_neg h1)

theorem outsAt1_C (c : Dev nD) (t : Fin cfg1.N) (h0 : ¬t.val % 8 = 0) (h1 : t.val % 8 = 7) :
    outsAt1 V c t.val t.isLt = readBack (runC V c t h0 h1 (outsAt1 V c (t.val - 1) (Nat.lt_of_le_of_lt (Nat.sub_le _ _) t.isLt))) := by
  obtain ⟨n, hn⟩ := t
  cases n with
  | zero => exact absurd rfl h0
  | succ n => exact (dif_neg h0).trans (dif_pos h1)

/-- Between two points the running maximum, the running sum and the accumulator are what the point before left. -/
def inv1 (c : Dev nD) (x : Vec F S1024x512 .f32 × Vec F S1024x1 .f32 × Vec F S1024x1 .f32 × Vec F S1024x512 .f32) : sProp 𝕄 :=
  iprop(((owns (c : Thread nD τ) scM1_0 fullShare x.2.1 ∗ owns (c : Thread nD τ) scM1_1 fullShare x.2.2.1 ∗ owns (c : Thread nD τ) scM1_2 fullShare x.2.2.2) ∗ rest1 c) ∗ (∃ r, prngReg c r))

theorem inv1_any (c : Dev nD) (x : Vec F S1024x512 .f32 × Vec F S1024x1 .f32 × Vec F S1024x1 .f32 × Vec F S1024x512 .f32) : inv1 (F := F) c x ⊢ invAny1 c := by
  unfold inv1 invAny1
  iintro ⟨⟨⟨H0, H1, H2⟩, HR⟩, Hg⟩
  iframe HR Hg
  isplitl [H0]; · iexists _; iexact H0
  isplitl [H1]; · iexists _; iexact H1
  iexists _; iexact H2

def PhiS1 (c : Dev nD) : (n : ℕ) → n ≤ cfg1.N → sProp 𝕄
  | 0, _ => Pipeline.ΦA spec1 c
  | n + 1, hn => inv1 c (outsAt1 V c n hn)

theorem PhiS1_pos (c : Dev nD) (n : ℕ) (h : n ≤ cfg1.N) (hz : n ≠ 0) : PhiS1 V c n h = inv1 c (outsAt1 V c (n - 1) (by omega)) := by
  cases n with
  | zero => exact absurd rfl hz
  | succ n => rfl

theorem PhiS1_any (c : Dev nD) (n : ℕ) (h : n ≤ cfg1.N) : PhiS1 V c n h ⊢ invAny1 c := by
  cases n with
  | zero => exact (PhiA1_eq c).le
  | succ n => exact inv1_any c _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Stores that cover a buffer fix its contents, whatever it held. -/
theorem owns_pieces {S : Shape} {φ : EltTy} (c : Dev nD) (M : Memref sig .tc .vmem S φ) (v : View sig .tc .vmem S φ) (L : List (View.Piece (Elt F) S φ))
    (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v.read (Elt F) (v.writes (Elt F) v.junk L)) := by
  unfold owns
  iintro ⟨%f, H⟩
  iexists _; isplitr
  swap; · iexact H
  ipureintro; exact View.read_writes_of_cover _ _ _ _ _ hL

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- One point of the sweep: `t mod 8` picks the case; the three carried buffers go in at the previous point's values and come out at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = inv1 c (outsAt1 V c t.val t.isLt) from rfl,
    show (dat1 V c).Φ t.castSucc = PhiS1 V c t.val (Nat.le_of_lt t.isLt) from rfl,
    show (dat1 V c).leavesExact 0 t = owns (c : Thread nD τ) (ms1_0 t) fullShare ((dat1 V c).after 0 t) from by
      unfold Dat.leavesExact; rw [liveAt1_0 t],
    show (dat1 V c).leavesExact 1 t = owns (c : Thread nD τ) (ms1_1 t) fullShare ((dat1 V c).after 1 t) from by
      unfold Dat.leavesExact; rw [liveAt1_1 t],
    show (dat1 V c).leavesExact 2 t = owns (c : Thread nD τ) (ms1_2 t) fullShare ((dat1 V c).after 2 t) from by
      unfold Dat.leavesExact; rw [liveAt1_2 t],
    after1_0, after1_1, after1_2]
  by_cases h0 : t.val % 8 = 0
  · have h1 : ¬t.val % 8 = 7 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h))),
      outsAt1_A V c t h0 h1]
    refine (sep_mono_left (PhiS1_any V c _ _)).trans ?_
    unfold invAny1 inv1 readBack; dsimp only
    iintro ⟨⟨⟨⟨HS0, HS1, HS2⟩, HR⟩, Hg⟩, Ho, ⟨%d0, H0⟩, ⟨%d1, H1⟩, ⟨%d2, H2⟩, ⟨%d3, H3⟩⟩
    iapply ((runA V c t h0 h1).2.2.2.2 ((dat1 V c).before 3 t d3) Set.univ _)
    iframe H0 H1 H2 H3 HS0 HS1 HS2
    iintro ⟨H0, H1, H2, H3, HS0, HS1, HS2⟩
    iframe HR Hg Ho H0 H1 H2
    isplitr [H3]
    swap; · iexists _; iexact H3
    isplitl [HS0]; · iapply (owns_pieces c scM1_0 VS1_0 _ (cover1_A _ _ _ _ _ _ _ _ _ _ _ _ _ _ _ _ _ _ _ _ _).1); iexact HS0
    isplitl [HS1]; · iapply (owns_pieces c scM1_1 VS1_1 _ (cover1_A _ _ _ _ _ _ _ _ _ _ _ _ _ _ _ _ _ _ _ _ _).2.1); iexact HS1
    iapply (owns_pieces c scM1_2 VS1_2 _ (cover1_A _ _ _ _ _ _ _ _ _ _ _ _ _ _ _ _ _ _ _ _ _).2.2); iexact HS2
  · have hz : t.val ≠ 0 := fun hz => h0 (by rw [hz])
    rw [PhiS1_pos V c _ _ hz]
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3, outsAt1_C V c t h0 h1]
      unfold inv1 readBack; dsimp only
      iintro ⟨⟨⟨⟨HS0, HS1, HS2⟩, HR⟩, Hg⟩, Ho, ⟨%d0, H0⟩, ⟨%d1, H1⟩, ⟨%d2, H2⟩, ⟨%d3, H3⟩⟩
      iapply ((runC V c t h0 h1 _).2.2.2.2 Set.univ _)
      iframe H0 H1 H2 HS0 HS1 HS2
      isplitl [H3]; · iexists _; iexact H3
      iintro ⟨H0, H1, H2, H3, HS0, HS1, HS2⟩
      iframe HR Hg Ho H0 H1 H2
      isplitr [H3]
      swap; · iapply (owns_pieces c (ms1_3 t) VO1_3 _ (cover1_C _ _ _ _ _ _ _ _ _ _ _ _ _ _ _ _ _ _ _ _ _ _ _ _).2.2.2); iexact H3
      isplitl [HS0]; · iapply (owns_pieces c scM1_0 VS1_0 _ (cover1_C _ _ _ _ _ _ _ _ _ _ _ _ _ _ _ _ _ _ _ _ _ _ _ _).1); iexact HS0
      isplitl [HS1]; · iapply (owns_pieces c scM1_1 VS1_1 _ (cover1_C _ _ _ _ _ _ _ _ _ _ _ _ _ _ _ _ _ _ _ _ _ _ _ _).2.1); iexact HS1
      iapply (owns_pieces c scM1_2 VS1_2 _ (cover1_C _ _ _ _ _ _ _ _ _ _ _ _ _ _ _ _ _ _ _ _ _ _ _ _).2.2.1); iexact HS2
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h))),
        outsAt1_B V c t h0 h1]
      unfold inv1 readBack; dsimp only
      iintro ⟨⟨⟨⟨HS0, HS1, HS2⟩, HR⟩, Hg⟩, Ho, ⟨%d0, H0⟩, ⟨%d1, H1⟩, ⟨%d2, H2⟩, ⟨%d3, H3⟩⟩
      iapply ((runB V c t h0 h1 _).2.2.2.2 ((dat1 V c).before 3 t d3) Set.univ _)
      iframe H0 H1 H2 H3 HS0 HS1 HS2
      iintro ⟨H0, H1, H2, H3, HS0, HS1, HS2⟩
      iframe HR Hg Ho H0 H1 H2
      isplitr [H3]
      swap; · iexists _; iexact H3
      isplitl [HS0]; · iapply (owns_pieces c scM1_0 VS1_0 _ (cover1_B _ _ _ _ _ _ _ _ _ _ _ _ _ _ _ _ _ _ _ _ _ _ _ _).1); iexact HS0
      isplitl [HS1]; · iapply (owns_pieces c scM1_1 VS1_1 _ (cover1_B _ _ _ _ _ _ _ _ _ _ _ _ _ _ _ _ _ _ _ _ _ _ _ _).2.1); iexact HS1
      iapply (owns_pieces c scM1_2 VS1_2 _ (cover1_B _ _ _ _ _ _ _ _ _ _ _ _ _ _ _ _ _ _ _ _ _ _ _ _).2.2); iexact HS2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq, show (dat1 V c).Φ (Fin.last cfg1.N) = PhiS1 V c (Fin.last cfg1.N).val (Nat.le_of_lt_succ (Fin.last cfg1.N).isLt) from rfl]
  exact PhiS1_any V c _ _

end Cert.Kernel.Hand

end
-- ==== Proof.K.Run.lean ====
import proofs.«406486_j8624294330992_3_alg».proof.Proof.K.Reg0
import proofs.«406486_j8624294330992_3_alg».proof.Proof.K.Reg1
import proofs.«406486_j8624294330992_3_alg».proof.Proof.Gen.Kernel.Launch
import proofs.«406486_j8624294330992_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W1_of_not_written (c : Dev nD) (r : Ref sig .tc) (h : r ∉ hostOps0_W) :
    W1 m ρ c (Proc.devRef .tc r) = W0 m ρ c (Proc.devRef .tc r) :=
  StableHlo.after_of_writes_sub hostOps0 _ hostOps0_writes h

theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <|
    (W1_of_not_written m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <|
    (W1_of_not_written m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <|
    (W1_of_not_written m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <|
    (W1_of_not_written m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <|
    (W1_of_not_written m ρ c main_arg4 (by decide)).trans rfl

theorem W3_main_v6 (c : Dev nD) : W3 m ρ c (Proc.devRef .tc main_v6) = (dat1 (V2 m ρ) c).arrAt 3 cfg1.N :=
  W3_arr m ρ c 3

theorem V2_main_v5_0 (c : Dev nD) : V2 m ρ c main_v5_0 = (dat0 (V1 m ρ) c).arrAt 5 cfg0.N := W2_arr m ρ c 5
theorem V2_main_v5_1 (c : Dev nD) : V2 m ρ c main_v5_1 = (dat0 (V1 m ρ) c).arrAt 6 cfg0.N := W2_arr m ρ c 6
theorem V2_main_v5_2 (c : Dev nD) : V2 m ρ c main_v5_2 = (dat0 (V1 m ρ) c).arrAt 7 cfg0.N := W2_arr m ρ c 7

theorem V1_main_v0 (c : Dev nD) :
    V1 m ρ c main_v0 = (truncf .bf16 (m ((c : Thread nD τ).loc main_arg0)) bitsLt_bf16_f32 : Vec F S8192x512 .bf16) := by
  show StableHlo.after hostOps0 (fun b => m (c, b)) (Proc.devRef .tc main_v0) = _
  after_results
theorem V1_main_v1 (c : Dev nD) :
    V1 m ρ c main_v1 = (truncf .bf16 (m ((c : Thread nD τ).loc main_arg1)) bitsLt_bf16_f32 : Vec F S8192x512 .bf16) := by
  show StableHlo.after hostOps0 (fun b => m (c, b)) (Proc.devRef .tc main_v1) = _
  after_results
theorem V1_main_v2 (c : Dev nD) :
    V1 m ρ c main_v2 = (truncf .bf16 (m ((c : Thread nD τ).loc main_arg2)) bitsLt_bf16_f32 : Vec F S512x512 .bf16) := by
  show StableHlo.after hostOps0 (fun b => m (c, b)) (Proc.devRef .tc main_v2) = _
  after_results
theorem V1_main_v3 (c : Dev nD) :
    V1 m ρ c main_v3 = (truncf .bf16 (m ((c : Thread nD τ).loc main_arg3)) bitsLt_bf16_f32 : Vec F S512x512 .bf16) := by
  show StableHlo.after hostOps0 (fun b => m (c, b)) (Proc.devRef .tc main_v3) = _
  after_results
theorem V1_main_v4 (c : Dev nD) :
    V1 m ρ c main_v4 = (truncf .bf16 (m ((c : Thread nD τ).loc main_arg4)) bitsLt_bf16_f32 : Vec F S512x512 .bf16) := by
  show StableHlo.after hostOps0 (fun b => m (c, b)) (Proc.devRef .tc main_v4) = _
  after_results

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem into_first1 (c : Dev nD) :
    (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄)
      ⊢ (dat1 (V2 m ρ) c).Φ 0 := by
  refine .trans ?_ (hin1 (V2 m ρ) c)
  unfold Pipeline.ΦA
  iintro ⟨Hp, -, Hr⟩
  isplitl [Hr]; · iexact Hr
  iexact Hp

theorem from_last1 (c : Dev nD) :
    (dat1 (V2 m ρ) c).Φ (Fin.last cfg1.N)
      ⊢ (iprop((∃ r, prngReg c r) ∗ BI.emp ∗ Pipeline.scopedRest (Pipeline.pin (pcfgs (F := F)) adm 1).spec c) : sProp 𝕄) := by
  refine .trans (hout1 (V2 m ρ) c) ?_
  unfold Pipeline.ΦA
  iintro ⟨Hr, Hp⟩
  isplitl [Hp]; · iexact Hp
  isplitr; · iempintro
  iexact Hr

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := into_first1 m ρ c
  hout c := by
    rw [Pipeline.ownSems0_none]
    exact from_last1 m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Hand

end
-- ==== Proof.KI.Reg0.lean ====
import proofs.«406486_j8624294330992_3_alg».proof.Proof.Gen.KernelIdeal.Launch
import proofs.«406486_j8624294330992_3_alg».proof.Proof.Gen.KernelIdeal.Skeleton
import proofs.«406486_j8624294330992_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev actRect : Rect S2048x512 := Rect.unit (s := S2048x512) ![0, 0] S2048x512.size inb_S2048x512_S2048x512_0_0
abbrev wtRect : Rect S512x512 := Rect.unit (s := S512x512) ![0, 0] S512x512.size inb_S512x512_S512x512_0_0

def out0_5 (x0 : Vec F S2048x512 .bf16) (x2 : Vec F S512x512 .bf16) : Vec F S2048x512 .bf16 :=
  View.canon [⟨actRect, k0_pay2 (View.ld x0 actRect) (View.ld x2 wtRect)⟩]

def out0_6 (x1 : Vec F S2048x512 .bf16) (x3 : Vec F S512x512 .bf16) : Vec F S2048x512 .bf16 :=
  View.canon [⟨actRect, k0_pay3 (View.ld x1 actRect) (View.ld x3 wtRect)⟩]

def out0_7 (x0 : Vec F S2048x512 .bf16) (x4 : Vec F S512x512 .bf16) : Vec F S2048x512 .bf16 :=
  View.canon [⟨actRect, k0_pay4 (View.ld x0 actRect) (View.ld x4 wtRect)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 2 t)
    | ⟨6, _⟩ => out0_6 (iblk0 V c 1 t) (iblk0 V c 3 t)
    | ⟨7, _⟩ => out0_7 (iblk0 V c 0 t) (iblk0 V c 4 t)
  Φ _ := Pipeline.ΦA spec0 c
  q _ := fullShare
  owed _ := 0

theorem cover0_act (p0 : Vec F S2048x512 .bf16) (y : S2048x512.Idx) :
    ∃ pc ∈ ([⟨actRect, p0⟩] : List (View.Piece (Elt F) S2048x512 .bf16)), y ∈ pc.1.set :=
  View.cover_of_tiled [⟨actRect, p0⟩] S2048x512.size (by rfl) y

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 1 t) (iblk0 V c 3 t) := by dsimp only [dat0]
theorem after0_7 (c : Dev nD) (t : Fin cfg0.N) : (dat0 V c).after 7 t = out0_7 (iblk0 V c 0 t) (iblk0 V c 4 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

set_option maxHeartbeats 1000000 in
theorem sound_kernel0 (c : Dev nD) (E : Set ℕ) (i : grid0.Coords) (arg1 : Memref sig .tc .vmem S2048x512 .bf16) (harg1 : arg1.IsWhole) (arg2 : Memref sig .tc .vmem S2048x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S2048x512 .bf16) (harg8 : arg8.IsWhole)
    (x0 x1 : Vec F S2048x512 .bf16) (x2 x3 x4 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0_5 x0 x2) ∗ owns (c : Thread nD τ) arg7 fullShare (out0_6 x1 x3) ∗ owns (c : Thread nD τ) arg8 fullShare (out0_7 x0 x4)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_act _)
  isplitl [H7]
  · iexists _; isplitr
    swap; · iexact H7
    ipureintro
    exact View.read_writes_eq_canon _ _ _ (cover0_act _)
  iexists _; isplitr
  swap; · iexact H8
  ipureintro
  exact View.read_writes_eq_canon _ _ _ (cover0_act _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) _)
  iframe H0 H1 H2 H3 H4
  isplitl [H5]; · iexists _; iexact H5
  isplitl [H6]; · iexists _; iexact H6
  isplitl [H7]; · iexists _; iexact H7
  iintro ⟨H0, H1, H2, H3, H4, H5, H6, H7⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Base.lean ====
import proofs.«406486_j8624294330992_3_alg».proof.Proof.Gen.KernelIdeal.Launch
import proofs.«406486_j8624294330992_3_alg».proof.Proof.Gen.KernelIdeal.Skeleton
import proofs.«406486_j8624294330992_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel

theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

abbrev VO1_3 : View sig .tc .vmem S1024x512 .f32 := (Memref.whole cc1_stg3_0 : Memref sig .tc .vmem S1024x512 .f32).view

abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .f32 := win1_3.stage (cfg1.slots t 3)
abbrev hs1_3 (t : Fin cfg1.N) : (ms1_3 t).IsWhole := hstage1_3 ((cfg1.slots t 3).cast nbuf1_3)

abbrev scM1_0 : Memref sig .tc .vmem S1024x1 .f32 := Memref.whole cc1_scratch0

abbrev scM1_1 : Memref sig .tc .vmem S1024x1 .f32 := Memref.whole cc1_scratch1

abbrev scM1_2 : Memref sig .tc .vmem S1024x512 .f32 := Memref.whole cc1_scratch2

abbrev VS1_0 : View sig .tc .vmem S1024x1 .f32 := scM1_0.view
abbrev VS1_1 : View sig .tc .vmem S1024x1 .f32 := scM1_1.view
abbrev VS1_2 : View sig .tc .vmem S1024x512 .f32 := scM1_2.view

abbrev rest1 (c : Dev nD) : sProp 𝕄 :=
  Pipeline.scopedRestBut (Ix := Unit) (Name := ℕ) (U := UR sig nD τ) (Lvl := ℕ) (Val := Elt F) spec1 c [cc1_scratch0, cc1_scratch1, cc1_scratch2]

def invAny1 (c : Dev nD) : sProp 𝕄 :=
  iprop((((∃ d, owns (c : Thread nD τ) scM1_0 fullShare d) ∗ (∃ d, owns (c : Thread nD τ) scM1_1 fullShare d) ∗ (∃ d, owns (c : Thread nD τ) scM1_2 fullShare d)) ∗ rest1 c)
    ∗ (∃ r, prngReg c r))

theorem PhiA1_eq (c : Dev nD) : (Pipeline.ΦA spec1 c : sProp 𝕄) = invAny1 c := by
  unfold Pipeline.ΦA invAny1 rest1
  rw [Pipeline.scopedRest_split_of_list spec1 c [cc1_scratch0, cc1_scratch1, cc1_scratch2] (by decide) (by decide)]
  simp only [scM1_0, scM1_1, scM1_2, owns_whole]; try rfl

end Cert.KernelIdeal.Hand

end
-- ==== Proof.KI.Reg1RunA.lean ====
import proofs.«406486_j8624294330992_3_alg».proof.Proof.KI.Reg1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole)
    (arg5 : Memref sig .tc .vmem S1024x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .f32) (harg8 : arg8.IsWhole)
    (hc0 : cond1_0 i) (hc1 : ¬cond1_1 i) (x0 x1 x2 : Vec F S1024x512 .bf16) :
    Σ' (L3 : List (View.Piece (Elt F) S1024x512 .f32)) (LS0 : List (View.Piece (Elt F) S1024x1 .f32)) (LS1 : List (View.Piece (Elt F) S1024x1 .f32)),
      { LS2 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.Reg1RunB.lean ====
import proofs.«406486_j8624294330992_3_alg».proof.Proof.KI.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole)
    (arg5 : Memref sig .tc .vmem S1024x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .f32) (harg8 : arg8.IsWhole)
    (hc0 : ¬cond1_0 i) (hc1 : ¬cond1_1 i) (x0 x1 x2 : Vec F S1024x512 .bf16) (xs0 xs1 : Vec F S1024x1 .f32) (xs2 : Vec F S1024x512 .f32) :
    Σ' (L3 : List (View.Piece (Elt F) S1024x512 .f32)) (LS0 : List (View.Piece (Elt F) S1024x1 .f32)) (LS1 : List (View.Piece (Elt F) S1024x1 .f32)),
      { LS2 : List (View.Piece (Elt F) S1024x512 .f32) //
      ∀ (xi3 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.KI.Reg1RunC.lean ====
import proofs.«406486_j8624294330992_3_alg».proof.Proof.KI.Reg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole)
    (arg5 : Memref sig .tc .vmem S1024x512 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x512 .f32) (harg8 : arg8.IsWhole)
    (hc0 : ¬cond1_0 i) (hc1 : cond1_1 i) (x0 x1 x2 : Vec F S1024x512 .bf16) (xs0 xs1 : Vec F S1024x1 .f32) (xs2 : Vec F S1024x512 .f32) :
    Σ' (L3 : List (View.Piece (Elt F) S1024x512 .f32)) (LS0 : List (View.Piece (Elt F) S1024x1 .f32)) (LS1 : List (View.Piece (Elt F) S1024x1 .f32)),
      { LS2 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Reg1.lean ====
import proofs.«406486_j8624294330992_3_alg».proof.Proof.KI.Reg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the output block, the running maximum, the running sum and the accumulator hold once the listed stores are done. -/
def readBack {p : List (View.Piece (Elt F) S1024x512 .f32) → List (View.Piece (Elt F) S1024x1 .f32) → List (View.Piece (Elt F) S1024x1 .f32) → List (View.Piece (Elt F) S1024x512 .f32) → Prop}
    (r : Σ' (L3 : List (View.Piece (Elt F) S1024x512 .f32)) (LS0 : List (View.Piece (Elt F) S1024x1 .f32)) (LS1 : List (View.Piece (Elt F) S1024x1 .f32)), { LS2 : List (View.Piece (Elt F) S1024x512 .f32) // p L3 LS0 LS1 LS2 }) : Vec F S1024x512 .f32 × Vec F S1024x1 .f32 × Vec F S1024x1 .f32 × Vec F S1024x512 .f32 :=
  (VO1_3.read (Elt F) (VO1_3.writes (Elt F) VO1_3.junk r.1), VS1_0.read (Elt F) (VS1_0.writes (Elt F) VS1_0.junk r.2.1),
    VS1_1.read (Elt F) (VS1_1.writes (Elt F) VS1_1.junk r.2.2.1), VS1_2.read (Elt F) (VS1_2.writes (Elt F) VS1_2.junk r.2.2.2.1))

section
variable (c : Dev nD) (i : grid1.Coords) (arg2 : Memref sig .tc .vmem S1024x512 .bf16) (harg2 : arg2.IsWhole) (arg3 : Memref sig .tc .vmem S1024x512 .bf16) (harg3 : arg3.IsWhole)
  (arg4 : Memref sig .tc .vmem S1024x512 .bf16) (harg4 : arg4.IsWhole) (arg5 : Memref sig .tc .vmem S1024x512 .f32) (harg5 : arg5.IsWhole) (arg6 : Memref sig .tc .vmem S1024x1 .f32) (harg6 : arg6.IsWhole)
  (arg7 : Memref sig .tc .vmem S1024x1 .f32) (harg7 : arg7.IsWhole) (arg8 : Memref sig .tc .vmem S1024x512 .f32) (harg8 : arg8.IsWhole)
  (x0 x1 x2 : Vec F S1024x512 .bf16) (xs0 xs1 : Vec F S1024x1 .f32) (xs2 : Vec F S1024x512 .f32)

/-- Every store is of a whole buffer, so the stores cover it. -/
theorem cover1_A (hc0 : cond1_0 i) (hc1 : ¬cond1_1 i) :
    (∀ y : S1024x1.Idx, ∃ pc ∈ (kernelRun1_A c i arg2 harg2 arg3 harg3 arg4 harg4 arg5 harg5 arg6 harg6 arg7 harg7 arg8 harg8 hc0 hc1 x0 x1 x2).2.1, y ∈ pc.1.set)
    ∧ (∀ y : S1024x1.Idx, ∃ pc ∈ (kernelRun1_A c i arg2 harg2 arg3 harg3 arg4 harg4 arg5 harg5 arg6 harg6 arg7 harg7 arg8 harg8 hc0 hc1 x0 x1 x2).2.2.1, y ∈ pc.1.set)
    ∧ ∀ y : S1024x512.Idx, ∃ pc ∈ (kernelRun1_A c i arg2 harg2 arg3 harg3 arg4 harg4 arg5 harg5 arg6 harg6 arg7 harg7 arg8 harg8 hc0 hc1 x0 x1 x2).2.2.2.1, y ∈ pc.1.set :=
  ⟨View.cover_of_tiledL _ S1024x1.size (by sl_kernel_rfl), View.cover_of_tiledL _ S1024x1.size (by sl_kernel_rfl), View.cover_of_tiledL _ S1024x512.size (by sl_kernel_rfl)⟩

theorem cover1_B (hc0 : ¬cond1_0 i) (hc1 : ¬cond1_1 i) :
    (∀ y : S1024x1.Idx, ∃ pc ∈ (kernelRun1_B c i arg2 harg2 arg3 harg3 arg4 harg4 arg5 harg5 arg6 harg6 arg7 harg7 arg8 harg8 hc0 hc1 x0 x1 x2 xs0 xs1 xs2).2.1, y ∈ pc.1.set)
    ∧ (∀ y : S1024x1.Idx, ∃ pc ∈ (kernelRun1_B c i arg2 harg2 arg3 harg3 arg4 harg4 arg5 harg5 arg6 harg6 arg7 harg7 arg8 harg8 hc0 hc1 x0 x1 x2 xs0 xs1 xs2).2.2.1, y ∈ pc.1.set)
    ∧ ∀ y : S1024x512.Idx, ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  ⟨View.cover_of_tiledL _ S1024x1.size (by sl_kernel_rfl), View.cover_of_tiledL _ S1024x1.size (by sl_kernel_rfl), View.cover_of_tiledL _ S1024x512.size (by sl_kernel_rfl)⟩

theorem cover1_C (hc0 : ¬cond1_0 i) (hc1 : cond1_1 i) :
    (∀ y : S1024x1.Idx, ∃ pc ∈ (kernelRun1_C c i arg2 harg2 arg3 harg3 arg4 harg4 arg5 harg5 arg6 harg6 arg7 harg7 arg8 harg8 hc0 hc1 x0 x1 x2 xs0 xs1 xs2).2.1, y ∈ pc.1.set)
    ∧ (∀ y : S1024x1.Idx, ∃ pc ∈ (kernelRun1_C c i arg2 harg2 arg3 harg3 arg4 harg4 arg5 harg5 arg6 harg6 arg7 harg7 arg8 harg8 hc0 hc1 x0 x1 x2 xs0 xs1 xs2).2.2.1, y ∈ pc.1.set)
    ∧ (∀ y : S1024x512.Idx, ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set)
    ∧ ∀ y : S1024x512.Idx, ∃ pc ∈ (kernelRun1_C c i arg2 harg2 arg3 harg3 arg4 harg4 arg5 harg5 arg6 harg6 arg7 harg7 arg8 harg8 hc0 hc1 x0 x1 x2 xs0 xs1 xs2).1, y ∈ pc.1.set :=
  ⟨View.cover_of_tiledL _ S1024x1.size (by sl_kernel_rfl), View.cover_of_tiledL _ S1024x1.size (by sl_kernel_rfl), View.cover_of_tiledL _ S1024x512.size (by sl_kernel_rfl),
    View.cover_of_tiledL _ S1024x512.size (by sl_kernel_rfl)⟩

end

abbrev runA (c : Dev nD) (t : Fin cfg1.N) (h0 : t.val % 8 = 0) (h1 : ¬t.val % 8 = 7) :=
  kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)
abbrev runB (c : Dev nD) (t : Fin cfg1.N) (h0 : ¬t.val % 8 = 0) (h1 : ¬t.val % 8 = 7) (prev : Vec F S1024x512 .f32 × Vec F S1024x1 .f32 × Vec F S1024x1 .f32 × Vec F S1024x512 .f32) :=
  kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) prev.2.1 prev.2.2.1 prev.2.2.2
abbrev runC (c : Dev nD) (t : Fin cfg1.N) (h0 : ¬t.val % 8 = 0) (h1 : t.val % 8 = 7) (prev : Vec F S1024x512 .f32 × Vec F S1024x1 .f32 × Vec F S1024x1 .f32 × Vec F S1024x512 .f32) :=
  kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) prev.2.1 prev.2.2.1 prev.2.2.2

/-- The four after point `n = 8 * qi + ki`: reset and updated where `ki = 0`, updated from the point before elsewhere, the quotient stored where `ki = 7`. -/
def outsAt1 (c : Dev nD) : (n : ℕ) → n < cfg1.N → Vec F S1024x512 .f32 × Vec F S1024x1 .f32 × Vec F S1024x1 .f32 × Vec F S1024x512 .f32
  | 0, hn => readBack (runA V c ⟨0, hn⟩ (show 0 % 8 = 0 from rfl) (show ¬0 % 8 = 7 by decide))
  | n + 1, hn =>
    if h0 : (n + 1) % 8 = 0 then readBack (runA V c ⟨n + 1, hn⟩ h0 (show ¬(n + 1) % 8 = 7 by omega))
    else if h1 : (n + 1) % 8 = 7 then readBack (runC V c ⟨n + 1, hn⟩ h0 h1 (outsAt1 c n (Nat.lt_of_succ_lt hn)))
    else readBack (runB V c ⟨n + 1, hn⟩ h0 h1 (outsAt1 c n (Nat.lt_of_succ_lt hn)))

theorem outsAt1_A (c : Dev nD) (t : Fin cfg1.N) (h0 : t.val % 8 = 0) (h1 : ¬t.val % 8 = 7) :
    outsAt1 V c t.val t.isLt = readBack (runA V c t h0 h1) := by
  obtain ⟨n, hn⟩ := t
  cases n with
  | zero => rfl
  | succ n => exact dif_pos h0

theorem outsAt1_B (c : Dev nD) (t : Fin cfg1.N) (h0 : ¬t.val % 8 = 0) (h1 : ¬t.val % 8 = 7) :
    outsAt1 V c t.val t.isLt = readBack (runB V c t h0 h1 (outsAt1 V c (t.val - 1) (Nat.lt_of_le_of_lt (Nat.sub_le _ _) t.isLt))) := by
  obtain ⟨n, hn⟩ := t
  cases n with
  | zero => exact absurd rfl h0
  | succ n => exact (dif_neg h0).trans (dif_neg h1)

theorem outsAt1_C (c : Dev nD) (t : Fin cfg1.N) (h0 : ¬t.val % 8 = 0) (h1 : t.val % 8 = 7) :
    outsAt1 V c t.val t.isLt = readBack (runC V c t h0 h1 (outsAt1 V c (t.val - 1) (Nat.lt_of_le_of_lt (Nat.sub_le _ _) t.isLt))) := by
  obtain ⟨n, hn⟩ := t
  cases n with
  | zero => exact absurd rfl h0
  | succ n => exact (dif_neg h0).trans (dif_pos h1)

/-- Between two points the running maximum, the running sum and the accumulator are what the point before left. -/
def inv1 (c : Dev nD) (x : Vec F S1024x512 .f32 × Vec F S1024x1 .f32 × Vec F S1024x1 .f32 × Vec F S1024x512 .f32) : sProp 𝕄 :=
  iprop(((owns (c : Thread nD τ) scM1_0 fullShare x.2.1 ∗ owns (c : Thread nD τ) scM1_1 fullShare x.2.2.1 ∗ owns (c : Thread nD τ) scM1_2 fullShare x.2.2.2) ∗ rest1 c) ∗ (∃ r, prngReg c r))

theorem inv1_any (c : Dev nD) (x : Vec F S1024x512 .f32 × Vec F S1024x1 .f32 × Vec F S1024x1 .f32 × Vec F S1024x512 .f32) : inv1 (F := F) c x ⊢ invAny1 c := by
  unfold inv1 invAny1
  iintro ⟨⟨⟨H0, H1, H2⟩, HR⟩, Hg⟩
  iframe HR Hg
  isplitl [H0]; · iexists _; iexact H0
  isplitl [H1]; · iexists _; iexact H1
  iexists _; iexact H2

def PhiS1 (c : Dev nD) : (n : ℕ) → n ≤ cfg1.N → sProp 𝕄
  | 0, _ => Pipeline.ΦA spec1 c
  | n + 1, hn => inv1 c (outsAt1 V c n hn)

theorem PhiS1_pos (c : Dev nD) (n : ℕ) (h : n ≤ cfg1.N) (hz : n ≠ 0) : PhiS1 V c n h = inv1 c (outsAt1 V c (n - 1) (by omega)) := by
  cases n with
  | zero => exact absurd rfl hz
  | succ n => rfl

theorem PhiS1_any (c : Dev nD) (n : ℕ) (h : n ≤ cfg1.N) : PhiS1 V c n h ⊢ invAny1 c := by
  cases n with
  | zero => exact (PhiA1_eq c).le
  | succ n => exact inv1_any c _

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Stores that cover a buffer fix its contents, whatever it held. -/
theorem owns_pieces {S : Shape} {φ : EltTy} (c : Dev nD) (M : Memref sig .tc .vmem S φ) (v : View sig .tc .vmem S φ) (L : List (View.Piece (Elt F) S φ))
    (hL : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v.read (Elt F) (v.writes (Elt F) v.junk L)) := by
  unfold owns
  iintro ⟨%f, H⟩
  iexists _; isplitr
  swap; · iexact H
  ipureintro; exact View.read_writes_of_cover _ _ _ _ _ hL

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- One point of the sweep: `t mod 8` picks the case; the three carried buffers go in at the previous point's values and come out at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = inv1 c (outsAt1 V c t.val t.isLt) from rfl,
    show (dat1 V c).Φ t.castSucc = PhiS1 V c t.val (Nat.le_of_lt t.isLt) from rfl,
    show (dat1 V c).leavesExact 0 t = owns (c : Thread nD τ) (ms1_0 t) fullShare ((dat1 V c).after 0 t) from by
      unfold Dat.leavesExact; rw [liveAt1_0 t],
    show (dat1 V c).leavesExact 1 t = owns (c : Thread nD τ) (ms1_1 t) fullShare ((dat1 V c).after 1 t) from by
      unfold Dat.leavesExact; rw [liveAt1_1 t],
    show (dat1 V c).leavesExact 2 t = owns (c : Thread nD τ) (ms1_2 t) fullShare ((dat1 V c).after 2 t) from by
      unfold Dat.leavesExact; rw [liveAt1_2 t],
    after1_0, after1_1, after1_2]
  by_cases h0 : t.val % 8 = 0
  · have h1 : ¬t.val % 8 = 7 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h))),
      outsAt1_A V c t h0 h1]
    refine (sep_mono_left (PhiS1_any V c _ _)).trans ?_
    unfold invAny1 inv1 readBack; dsimp only
    iintro ⟨⟨⟨⟨HS0, HS1, HS2⟩, HR⟩, Hg⟩, Ho, ⟨%d0, H0⟩, ⟨%d1, H1⟩, ⟨%d2, H2⟩, ⟨%d3, H3⟩⟩
    iapply ((runA V c t h0 h1).2.2.2.2 ((dat1 V c).before 3 t d3) Set.univ _)
    iframe H0 H1 H2 H3 HS0 HS1 HS2
    iintro ⟨H0, H1, H2, H3, HS0, HS1, HS2⟩
    iframe HR Hg Ho H0 H1 H2
    isplitr [H3]
    swap; · iexists _; iexact H3
    isplitl [HS0]; · iapply (owns_pieces c scM1_0 VS1_0 _ (cover1_A _ _ _ _ _ _ _ _ _ _ _ _ _ _ _ _ _ _ _ _ _).1); iexact HS0
    isplitl [HS1]; · iapply (owns_pieces c scM1_1 VS1_1 _ (cover1_A _ _ _ _ _ _ _ _ _ _ _ _ _ _ _ _ _ _ _ _ _).2.1); iexact HS1
    iapply (owns_pieces c scM1_2 VS1_2 _ (cover1_A _ _ _ _ _ _ _ _ _ _ _ _ _ _ _ _ _ _ _ _ _).2.2); iexact HS2
  · have hz : t.val ≠ 0 := fun hz => h0 (by rw [hz])
    rw [PhiS1_pos V c _ _ hz]
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3, outsAt1_C V c t h0 h1]
      unfold inv1 readBack; dsimp only
      iintro ⟨⟨⟨⟨HS0, HS1, HS2⟩, HR⟩, Hg⟩, Ho, ⟨%d0, H0⟩, ⟨%d1, H1⟩, ⟨%d2, H2⟩, ⟨%d3, H3⟩⟩
      iapply ((runC V c t h0 h1 _).2.2.2.2 Set.univ _)
      iframe H0 H1 H2 HS0 HS1 HS2
      isplitl [H3]; · iexists _; iexact H3
      iintro ⟨H0, H1, H2, H3, HS0, HS1, HS2⟩
      iframe HR Hg Ho H0 H1 H2
      isplitr [H3]
      swap; · iapply (owns_pieces c (ms1_3 t) VO1_3 _ (cover1_C _ _ _ _ _ _ _ _ _ _ _ _ _ _ _ _ _ _ _ _ _ _ _ _).2.2.2); iexact H3
      isplitl [HS0]; · iapply (owns_pieces c scM1_0 VS1_0 _ (cover1_C _ _ _ _ _ _ _ _ _ _ _ _ _ _ _ _ _ _ _ _ _ _ _ _).1); iexact HS0
      isplitl [HS1]; · iapply (owns_pieces c scM1_1 VS1_1 _ (cover1_C _ _ _ _ _ _ _ _ _ _ _ _ _ _ _ _ _ _ _ _ _ _ _ _).2.1); iexact HS1
      iapply (owns_pieces c scM1_2 VS1_2 _ (cover1_C _ _ _ _ _ _ _ _ _ _ _ _ _ _ _ _ _ _ _ _ _ _ _ _).2.2.1); iexact HS2
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h))),
        outsAt1_B V c t h0 h1]
      unfold inv1 readBack; dsimp only
      iintro ⟨⟨⟨⟨HS0, HS1, HS2⟩, HR⟩, Hg⟩, Ho, ⟨%d0, H0⟩, ⟨%d1, H1⟩, ⟨%d2, H2⟩, ⟨%d3, H3⟩⟩
      iapply ((runB V c t h0 h1 _).2.2.2.2 ((dat1 V c).before 3 t d3) Set.univ _)
      iframe H0 H1 H2 H3 HS0 HS1 HS2
      iintro ⟨H0, H1, H2, H3, HS0, HS1, HS2⟩
      iframe HR Hg Ho H0 H1 H2
      isplitr [H3]
      swap; · iexists _; iexact H3
      isplitl [HS0]; · iapply (owns_pieces c scM1_0 VS1_0 _ (cover1_B _ _ _ _ _ _ _ _ _ _ _ _ _ _ _ _ _ _ _ _ _ _ _ _).1); iexact HS0
      isplitl [HS1]; · iapply (owns_pieces c scM1_1 VS1_1 _ (cover1_B _ _ _ _ _ _ _ _ _ _ _ _ _ _ _ _ _ _ _ _ _ _ _ _).2.1); iexact HS1
      iapply (owns_pieces c scM1_2 VS1_2 _ (cover1_B _ _ _ _ _ _ _ _ _ _ _ _ _ _ _ _ _ _ _ _ _ _ _ _).2.2); iexact HS2

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c := by
  rw [PhiA1_eq, show (dat1 V c).Φ (Fin.last cfg1.N) = PhiS1 V c (Fin.last cfg1.N).val (Nat.le_of_lt_succ (Fin.last cfg1.N).isLt) from rfl]
  exact PhiS1_any V c _ _

end Cert.KernelIdeal.Hand

end
-- ==== Proof.KI.Run.lean ====
import proofs.«406486_j8624294330992_3_alg».proof.Proof.KI.Reg0
import proofs.«406486_j8624294330992_3_alg».proof.Proof.KI.Reg1
import proofs.«406486_j8624294330992_3_alg».proof.Proof.Gen.KernelIdeal.Launch
import proofs.«406486_j8624294330992_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

theorem W1_of_not_written (c : Dev nD) (r : Ref sig .tc) (h : r ∉ hostOps0_W) :
    W1 m ρ c (Proc.devRef .tc r) = W0 m ρ c (Proc.devRef .tc r) :=
  StableHlo.after_of_writes_sub hostOps0 _ hostOps0_writes h

theorem W3_main_arg0 (c : Dev nD) : W3 m ρ c (Proc.devRef .tc main_arg0) = m ((c : Thread nD τ).loc main_arg0) :=
  (W3_of_ne m ρ c main_arg0 (by decide)).trans <| (W2_of_ne m ρ c main_arg0 (by decide)).trans <|
    (W1_of_not_written m ρ c main_arg0 (by decide)).trans rfl
theorem W3_main_arg1 (c : Dev nD) : W3 m ρ c (Proc.devRef .tc main_arg1) = m ((c : Thread nD τ).loc main_arg1) :=
  (W3_of_ne m ρ c main_arg1 (by decide)).trans <| (W2_of_ne m ρ c main_arg1 (by decide)).trans <|
    (W1_of_not_written m ρ c main_arg1 (by decide)).trans rfl
theorem W3_main_arg2 (c : Dev nD) : W3 m ρ c (Proc.devRef .tc main_arg2) = m ((c : Thread nD τ).loc main_arg2) :=
  (W3_of_ne m ρ c main_arg2 (by decide)).trans <| (W2_of_ne m ρ c main_arg2 (by decide)).trans <|
    (W1_of_not_written m ρ c main_arg2 (by decide)).trans rfl
theorem W3_main_arg3 (c : Dev nD) : W3 m ρ c (Proc.devRef .tc main_arg3) = m ((c : Thread nD τ).loc main_arg3) :=
  (W3_of_ne m ρ c main_arg3 (by decide)).trans <| (W2_of_ne m ρ c main_arg3 (by decide)).trans <|
    (W1_of_not_written m ρ c main_arg3 (by decide)).trans rfl
theorem W3_main_arg4 (c : Dev nD) : W3 m ρ c (Proc.devRef .tc main_arg4) = m ((c : Thread nD τ).loc main_arg4) :=
  (W3_of_ne m ρ c main_arg4 (by decide)).trans <| (W2_of_ne m ρ c main_arg4 (by decide)).trans <|
    (W1_of_not_written m ρ c main_arg4 (by decide)).trans rfl

theorem W3_main_v6 (c : Dev nD) : W3 m ρ c (Proc.devRef .tc main_v6) = (dat1 (V2 m ρ) c).arrAt 3 cfg1.N :=
  W3_arr m ρ c 3

theorem V2_main_v5_0 (c : Dev nD) : V2 m ρ c main_v5_0 = (dat0 (V1 m ρ) c).arrAt 5 cfg0.N := W2_arr m ρ c 5
theorem V2_main_v5_1 (c : Dev nD) : V2 m ρ c main_v5_1 = (dat0 (V1 m ρ) c).arrAt 6 cfg0.N := W2_arr m ρ c 6
theorem V2_main_v5_2 (c : Dev nD) : V2 m ρ c main_v5_2 = (dat0 (V1 m ρ) c).arrAt 7 cfg0.N := W2_arr m ρ c 7

theorem V1_main_v0 (c : Dev nD) :
    V1 m ρ c main_v0 = (truncf .bf16 (m ((c : Thread nD τ).loc main_arg0)) bitsLt_bf16_f32 : Vec F S8192x512 .bf16) := by
  show StableHlo.after hostOps0 (fun b => m (c, b)) (Proc.devRef .tc main_v0) = _
  after_results
theorem V1_main_v1 (c : Dev nD) :
    V1 m ρ c main_v1 = (truncf .bf16 (m ((c : Thread nD τ).loc main_arg1)) bitsLt_bf16_f32 : Vec F S8192x512 .bf16) := by
  show StableHlo.after hostOps0 (fun b => m (c, b)) (Proc.devRef .tc main_v1) = _
  after_results
theorem V1_main_v2 (c : Dev nD) :
    V1 m ρ c main_v2 = (truncf .bf16 (m ((c : Thread nD τ).loc main_arg2)) bitsLt_bf16_f32 : Vec F S512x512 .bf16) := by
  show StableHlo.after hostOps0 (fun b => m (c, b)) (Proc.devRef .tc main_v2) = _
  after_results
theorem V1_main_v3 (c : Dev nD) :
    V1 m ρ c main_v3 = (truncf .bf16 (m ((c : Thread nD τ).loc main_arg3)) bitsLt_bf16_f32 : Vec F S512x512 .bf16) := by
  show StableHlo.after hostOps0 (fun b => m (c, b)) (Proc.devRef .tc main_v3) = _
  after_results
theorem V1_main_v4 (c : Dev nD) :
    V1 m ρ c main_v4 = (truncf .bf16 (m ((c : Thread nD τ).loc main_arg4)) bitsLt_bf16_f32 : Vec F S512x512 .bf16) := by
  show StableHlo.after hostOps0 (fun b => m (c, b)) (Proc.devRef .tc main_v4) = _
  after_results

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

theorem into_first1 (c : Dev nD) :
    (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄)
      ⊢ (dat1 (V2 m ρ) c).Φ 0 := by
  refine .trans ?_ (hin1 (V2 m ρ) c)
  unfold Pipeline.ΦA
  iintro ⟨Hp, -, Hr⟩
  isplitl [Hr]; · iexact Hr
  iexact Hp

theorem from_last1 (c : Dev nD) :
    (dat1 (V2 m ρ) c).Φ (Fin.last cfg1.N)
      ⊢ (iprop((∃ r, prngReg c r) ∗ BI.emp ∗ Pipeline.scopedRest (Pipeline.pin (pcfgs (F := F)) adm 1).spec c) : sProp 𝕄) := by
  refine .trans (hout1 (V2 m ρ) c) ?_
  unfold Pipeline.ΦA
  iintro ⟨Hr, Hp⟩
  isplitl [Hp]; · iexact Hp
  isplitr; · iempintro
  iexact Hr

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := into_first1 m ρ c
  hout c := by
    rw [Pipeline.ownSems0_none]
    exact from_last1 m ρ c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Hand

end
-- ==== Proof.KI.Val0.lean ====
import proofs.«406486_j8624294330992_3_alg».proof.Proof.KI.Reg0
import proofs.«406486_j8624294330992_3_alg».proof.Proof.Spec
import proofs.«406486_j8624294330992_3_alg».proof.Proof.Alg
import proofs.«406486_j8624294330992_3_alg».proof.Proof.RefDot
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

namespace Proj

theorem hz : (![0, 0] : Fin 2 → Nat) = fun _ => 0 := funext fun a => by fin_cases a <;> rfl

theorem block_product (A : FVec Ideal S2048x512 .bf16) (B : FVec Ideal S512x512 .bf16)
    (a : Fin 2048 → Fin 512 → ℝ) (b : Fin 512 → Fin 512 → ℝ)
    (hA : ∀ r k, A (ix2 r k) = ((a r k : ℝ) : EReal)) (hB : ∀ k q, B (ix2 k q) = ((b k q : ℝ) : EReal))
    (r : Fin 2048) (q : Fin 512) :
    (truncf .bf16 (matmul dot_S2048x512_S512x512_S2048x512_1_0_0_1_n_n none
        (shapeCast S2048x512 A shapeCasts_S2048x512_S2048x512) (shapeCast S512x512 B shapeCasts_S512x512_S512x512)
        (constant (F := Ideal) S2048x512 .f32 0x00000000#32)) bitsLt_bf16_f32 : FVec Ideal S2048x512 .bf16) (ix2 r q)
      = ((∑ k : Fin 512, a r k * b k q : ℝ) : EReal) := by
  rw [truncf_apply, shapeCast_self, shapeCast_self]
  simp only [matmul]
  rw [Ideal.matmul_constant_zero_apply, Cert.ReferenceIdeal.RefDot.plain_sum _ rfl rfl rfl rfl rfl rfl, ← Cert.Alg.coe_sum]
  exact Finset.sum_congr rfl fun k _ => by rw [hA, hB, EReal.coe_mul]

theorem block_entry (A : FVec Ideal S2048x512 .bf16) (B : FVec Ideal S512x512 .bf16)
    (x : Fin 8192 → Fin 512 → ℝ) (w : Fin 512 → Fin 512 → ℝ) (n : ℕ) (hn : n < 4)
    (hA : ∀ (r : Fin 2048) (k : Fin 512), A (ix2 r k) = ((x ⟨2048 * n + r.val, by omega⟩ k : ℝ) : EReal))
    (hB : ∀ k q, B (ix2 k q) = ((w k q : ℝ) : EReal)) (r : Fin 2048) (q : Fin 512) :
    (truncf .bf16 (matmul dot_S2048x512_S512x512_S2048x512_1_0_0_1_n_n none
        (shapeCast S2048x512 A shapeCasts_S2048x512_S2048x512) (shapeCast S512x512 B shapeCasts_S512x512_S512x512)
        (constant (F := Ideal) S2048x512 .f32 0x00000000#32)) bitsLt_bf16_f32 : FVec Ideal S2048x512 .bf16) (ix2 r q)
      = ((Cert.Spec.proj x w ⟨2048 * n + r.val, by omega⟩ q : ℝ) : EReal) :=
  block_product A B (fun r k => x ⟨2048 * n + r.val, by omega⟩ k) w hA hB r q

theorem index0_0 : ∀ t : Fin cfg0.N, win0_0.index t (0 : Fin 2) = t.val ∧ win0_0.index t (1 : Fin 2) = 0 :=
  (by decide +kernel : ∀ t : Fin grid0.N, _)
theorem index0_1 : ∀ t : Fin cfg0.N, win0_1.index t (0 : Fin 2) = t.val ∧ win0_1.index t (1 : Fin 2) = 0 :=
  (by decide +kernel : ∀ t : Fin grid0.N, _)
theorem index0_2 : ∀ t : Fin cfg0.N, win0_2.index t (0 : Fin 2) = 0 ∧ win0_2.index t (1 : Fin 2) = 0 :=
  (by decide +kernel : ∀ t : Fin grid0.N, _)
theorem index0_3 : ∀ t : Fin cfg0.N, win0_3.index t (0 : Fin 2) = 0 ∧ win0_3.index t (1 : Fin 2) = 0 :=
  (by decide +kernel : ∀ t : Fin grid0.N, _)
theorem index0_4 : ∀ t : Fin cfg0.N, win0_4.index t (0 : Fin 2) = 0 ∧ win0_4.index t (1 : Fin 2) = 0 :=
  (by decide +kernel : ∀ t : Fin grid0.N, _)
theorem index0_5 : ∀ t : Fin cfg0.N, win0_5.index t (0 : Fin 2) = t.val ∧ win0_5.index t (1 : Fin 2) = 0 :=
  (by decide +kernel : ∀ t : Fin grid0.N, _)
theorem index0_6 : ∀ t : Fin cfg0.N, win0_6.index t (0 : Fin 2) = t.val ∧ win0_6.index t (1 : Fin 2) = 0 :=
  (by decide +kernel : ∀ t : Fin grid0.N, _)
theorem index0_7 : ∀ t : Fin cfg0.N, win0_7.index t (0 : Fin 2) = t.val ∧ win0_7.index t (1 : Fin 2) = 0 :=
  (by decide +kernel : ∀ t : Fin grid0.N, _)

theorem act_block0_0 (c : Dev nD) (t : Fin cfg0.N) (r : Fin 2048) (k : Fin 512) (h : 2048 * t.val + r.val < 8192) :
    (iblk0 V c 0 t : Vec Ideal S2048x512 .bf16) (ix2 r k)
      = (V c main_v0 : Vec Ideal S8192x512 .bf16) (ix2 ⟨2048 * t.val + r.val, h⟩ k) := by
  obtain ⟨e0, e1⟩ := index0_0 t
  unfold iblk0
  rw [View.read_apply]
  show V c main_v0 _ = V c main_v0 _
  congr 1
  funext a; apply Fin.ext
  match a with
  | ⟨0, _⟩ => show win0_0.index t (0 : Fin 2) * 2048 + 1 * r.val = 2048 * t.val + r.val; rw [e0]; omega
  | ⟨1, _⟩ => show win0_0.index t (1 : Fin 2) * 512 + 1 * k.val = k.val; rw [e1]; omega

theorem act_block0_1 (c : Dev nD) (t : Fin cfg0.N) (r : Fin 2048) (k : Fin 512) (h : 2048 * t.val + r.val < 8192) :
    (iblk0 V c 1 t : Vec Ideal S2048x512 .bf16) (ix2 r k)
      = (V c main_v1 : Vec Ideal S8192x512 .bf16) (ix2 ⟨2048 * t.val + r.val, h⟩ k) := by
  obtain ⟨e0, e1⟩ := index0_1 t
  unfold iblk0
  rw [View.read_apply]
  show V c main_v1 _ = V c main_v1 _
  congr 1
  funext a; apply Fin.ext
  match a with
  | ⟨0, _⟩ => show win0_1.index t (0 : Fin 2) * 2048 + 1 * r.val = 2048 * t.val + r.val; rw [e0]; omega
  | ⟨1, _⟩ => show win0_1.index t (1 : Fin 2) * 512 + 1 * k.val = k.val; rw [e1]; omega

theorem wt_block0_2 (c : Dev nD) (t : Fin cfg0.N) (k q : Fin 512) :
    (iblk0 V c 2 t : Vec Ideal S512x512 .bf16) (ix2 k q) = (V c main_v2 : Vec Ideal S512x512 .bf16) (ix2 k q) := by
  obtain ⟨e0, e1⟩ := index0_2 t
  unfold iblk0
  rw [View.read_apply]
  show V c main_v2 _ = V c main_v2 _
  congr 1
  funext a; apply Fin.ext
  match a with
  | ⟨0, _⟩ => show win0_2.index t (0 : Fin 2) * 512 + 1 * k.val = k.val; rw [e0]; omega
  | ⟨1, _⟩ => show win0_2.index t (1 : Fin 2) * 512 + 1 * q.val = q.val; rw [e1]; omega

theorem wt_block0_3 (c : Dev nD) (t : Fin cfg0.N) (k q : Fin 512) :
    (iblk0 V c 3 t : Vec Ideal S512x512 .bf16) (ix2 k q) = (V c main_v3 : Vec Ideal S512x512 .bf16) (ix2 k q) := by
  obtain ⟨e0, e1⟩ := index0_3 t
  unfold iblk0
  rw [View.read_apply]
  show V c main_v3 _ = V c main_v3 _
  congr 1
  funext a; apply Fin.ext
  match a with
  | ⟨0, _⟩ => show win0_3.index t (0 : Fin 2) * 512 + 1 * k.val = k.val; rw [e0]; omega
  | ⟨1, _⟩ => show win0_3.index t (1 : Fin 2) * 512 + 1 * q.val = q.val; rw [e1]; omega

theorem wt_block0_4 (c : Dev nD) (t : Fin cfg0.N) (k q : Fin 512) :
    (iblk0 V c 4 t : Vec Ideal S512x512 .bf16) (ix2 k q) = (V c main_v4 : Vec Ideal S512x512 .bf16) (ix2 k q) := by
  obtain ⟨e0, e1⟩ := index0_4 t
  unfold iblk0
  rw [View.read_apply]
  show V c main_v4 _ = V c main_v4 _
  congr 1
  funext a; apply Fin.ext
  match a with
  | ⟨0, _⟩ => show win0_4.index t (0 : Fin 2) * 512 + 1 * k.val = k.val; rw [e0]; omega
  | ⟨1, _⟩ => show win0_4.index t (1 : Fin 2) * 512 + 1 * q.val = q.val; rw [e1]; omega

def product (x : Fin 8192 → Fin 512 → ℝ) (w : Fin 512 → Fin 512 → ℝ) : Vec Ideal S8192x512 .bf16 :=
  fun i => ((Cert.Spec.proj x w (i 0) (i 1) : ℝ) : EReal)

theorem flushed0_5_eq (c : Dev nD) (x1 : Fin 8192 → Fin 512 → ℝ) (wq : Fin 512 → Fin 512 → ℝ)
    (h0 : ∀ p q, (V c main_v0 : Vec Ideal S8192x512 .bf16) (ix2 p q) = ((x1 p q : ℝ) : EReal))
    (h2 : ∀ p q, (V c main_v2 : Vec Ideal S512x512 .bf16) (ix2 p q) = ((wq p q : ℝ) : EReal))
    (t : Fin cfg0.N) :
    (dat0 V c).flushed 5 t = ((cfg0.win 5).blk t).view.read (Elt Ideal) (product x1 wq) := by
  show (cfg0.win 5).cut (grid0.coords t) ((dat0 V c).after 5 t) = _
  rw [after0_5]
  unfold out0_5
  rw [View.canon_unit_zero hz]
  simp only [View.ld_unit_zero (S := S2048x512) hz, View.ld_unit_zero (S := S512x512) hz]
  funext j
  have ht : t.val < 4 := lt_of_lt_of_eq t.isLt N_0
  obtain ⟨e0, e1⟩ := index0_5 t
  have hj0 : (j 0).val < 2048 := (j 0).isLt
  have hj1 : (j 1).val < 512 := (j 1).isLt
  have hx : ((cfg0.win 5).xinj (grid0.coords t) j : S2048x512.Idx) = ix2 ⟨(j 0).val, hj0⟩ ⟨(j 1).val, hj1⟩ := by
    funext a; match a with | ⟨0, _⟩ => rfl | ⟨1, _⟩ => rfl
  have hi : (((cfg0.win 5).blk t).view.emb j : S8192x512.Idx)
      = ix2 ⟨2048 * t.val + (j 0).val, by omega⟩ ⟨(j 1).val, hj1⟩ := by
    funext a; apply Fin.ext
    match a with
    | ⟨0, _⟩ => show win0_5.index t (0 : Fin 2) * 2048 + 1 * (j 0).val = 2048 * t.val + (j 0).val; rw [e0]; omega
    | ⟨1, _⟩ => show win0_5.index t (1 : Fin 2) * 512 + 1 * (j 1).val = (j 1).val; rw [e1]; omega
  show k0_pay2 (iblk0 V c 0 t) (iblk0 V c 2 t) ((cfg0.win 5).xinj (grid0.coords t) j)
    = product x1 wq (((cfg0.win 5).blk t).view.emb j)
  refine (congrArg (k0_pay2 (iblk0 V c 0 t) (iblk0 V c 2 t)) hx).trans
    (Eq.trans ?_ (congrArg (product x1 wq) hi).symm)
  exact block_entry (iblk0 V c 0 t) (iblk0 V c 2 t) x1 wq t.val ht
    (fun r k => (act_block0_0 V c t r k (by omega)).trans (h0 _ _))
    (fun k q => (wt_block0_2 V c t k q).trans (h2 _ _)) _ _

theorem mem_blk0_5 (t : Fin cfg0.N) (i : S8192x512.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v5_0).slice (win0_5.rect t)).set ↔ _
  rw [View.set_slice_whole, Rect.mem_set_unit]
  exact Iff.rfl

theorem cover0_5 (i : S8192x512.Idx) :
    ∃ t : Fin cfg0.N, (cfg0.win 5).flush t = true ∧ i ∈ ((cfg0.win 5).blk t).view.set := by
  have hi0 : (i 0).val < 8192 := (i 0).isLt
  have hi1 : (i 1).val < 512 := (i 1).isLt
  obtain ⟨t, ht⟩ : ∃ t : Fin cfg0.N, t.val = (i 0).val / 2048 :=
    ⟨⟨(i 0).val / 2048, lt_of_lt_of_eq (by omega) N_0.symm⟩, rfl⟩
  refine ⟨t, flush0_5 t, ?_⟩
  obtain ⟨e0, e1⟩ := index0_5 t
  rw [mem_blk0_5]
  intro a
  match a with
  | ⟨0, _⟩ =>
    show win0_5.index t (0 : Fin 2) * 2048 ≤ (i 0).val ∧ (i 0).val < win0_5.index t (0 : Fin 2) * 2048 + 2048
    rw [e0, ht]; omega
  | ⟨1, _⟩ =>
    show win0_5.index t (1 : Fin 2) * 512 ≤ (i 1).val ∧ (i 1).val < win0_5.index t (1 : Fin 2) * 512 + 512
    rw [e1]; omega

theorem flushed0_6_eq (c : Dev nD) (x2 : Fin 8192 → Fin 512 → ℝ) (wk : Fin 512 → Fin 512 → ℝ)
    (h1 : ∀ p q, (V c main_v1 : Vec Ideal S8192x512 .bf16) (ix2 p q) = ((x2 p q : ℝ) : EReal))
    (h3 : ∀ p q, (V c main_v3 : Vec Ideal S512x512 .bf16) (ix2 p q) = ((wk p q : ℝ) : EReal))
    (t : Fin cfg0.N) :
    (dat0 V c).flushed 6 t = ((cfg0.win 6).blk t).view.read (Elt Ideal) (product x2 wk) := by
  show (cfg0.win 6).cut (grid0.coords t) ((dat0 V c).after 6 t) = _
  rw [after0_6]
  unfold out0_6
  rw [View.canon_unit_zero hz]
  simp only [View.ld_unit_zero (S := S2048x512) hz, View.ld_unit_zero (S := S512x512) hz]
  funext j
  have ht : t.val < 4 := lt_of_lt_of_eq t.isLt N_0
  obtain ⟨e0, e1⟩ := index0_6 t
  have hj0 : (j 0).val < 2048 := (j 0).isLt
  have hj1 : (j 1).val < 512 := (j 1).isLt
  have hx : ((cfg0.win 6).xinj (grid0.coords t) j : S2048x512.Idx) = ix2 ⟨(j 0).val, hj0⟩ ⟨(j 1).val, hj1⟩ := by
    funext a; match a with | ⟨0, _⟩ => rfl | ⟨1, _⟩ => rfl
  have hi : (((cfg0.win 6).blk t).view.emb j : S8192x512.Idx)
      = ix2 ⟨2048 * t.val + (j 0).val, by omega⟩ ⟨(j 1).val, hj1⟩ := by
    funext a; apply Fin.ext
    match a with
    | ⟨0, _⟩ => show win0_6.index t (0 : Fin 2) * 2048 + 1 * (j 0).val = 2048 * t.val + (j 0).val; rw [e0]; omega
    | ⟨1, _⟩ => show win0_6.index t (1 : Fin 2) * 512 + 1 * (j 1).val = (j 1).val; rw [e1]; omega
  show k0_pay3 (iblk0 V c 1 t) (iblk0 V c 3 t) ((cfg0.win 6).xinj (grid0.coords t) j)
    = product x2 wk (((cfg0.win 6).blk t).view.emb j)
  refine (congrArg (k0_pay3 (iblk0 V c 1 t) (iblk0 V c 3 t)) hx).trans
    (Eq.trans ?_ (congrArg (product x2 wk) hi).symm)
  exact block_entry (iblk0 V c 1 t) (iblk0 V c 3 t) x2 wk t.val ht
    (fun r k => (act_block0_1 V c t r k (by omega)).trans (h1 _ _))
    (fun k q => (wt_block0_3 V c t k q).trans (h3 _ _)) _ _

theorem mem_blk0_6 (t : Fin cfg0.N) (i : S8192x512.Idx) :
    i ∈ ((cfg0.win 6).blk t).view.set ↔ ∀ a : Fin 2, win0_6.index t a * S2048x512.size a ≤ (i a).val
      ∧ (i a).val < win0_6.index t a * S2048x512.size a + S2048x512.size a := by
  show i ∈ ((View.whole main_v5_1).slice (win0_6.rect t)).set ↔ _
  rw [View.set_slice_whole, Rect.mem_set_unit]
  exact Iff.rfl

theorem cover0_6 (i : S8192x512.Idx) :
    ∃ t : Fin cfg0.N, (cfg0.win 6).flush t = true ∧ i ∈ ((cfg0.win 6).blk t).view.set := by
  have hi0 : (i 0).val < 8192 := (i 0).isLt
  have hi1 : (i 1).val < 512 := (i 1).isLt
  obtain ⟨t, ht⟩ : ∃ t : Fin cfg0.N, t.val = (i 0).val / 2048 :=
    ⟨⟨(i 0).val / 2048, lt_of_lt_of_eq (by omega) N_0.symm⟩, rfl⟩
  refine ⟨t, flush0_6 t, ?_⟩
  obtain ⟨e0, e1⟩ := index0_6 t
  rw [mem_blk0_6]
  intro a
  match a with
  | ⟨0, _⟩ =>
    show win0_6.index t (0 : Fin 2) * 2048 ≤ (i 0).val ∧ (i 0).val < win0_6.index t (0 : Fin 2) * 2048 + 2048
    rw [e0, ht]; omega
  | ⟨1, _⟩ =>
    show win0_6.index t (1 : Fin 2) * 512 ≤ (i 1).val ∧ (i 1).val < win0_6.index t (1 : Fin 2) * 512 + 512
    rw [e1]; omega

theorem flushed0_7_eq (c : Dev nD) (x1 : Fin 8192 → Fin 512 → ℝ) (wv : Fin 512 → Fin 512 → ℝ)
    (h0 : ∀ p q, (V c main_v0 : Vec Ideal S8192x512 .bf16) (ix2 p q) = ((x1 p q : ℝ) : EReal))
    (h4 : ∀ p q, (V c main_v4 : Vec Ideal S512x512 .bf16) (ix2 p q) = ((wv p q : ℝ) : EReal))
    (t : Fin cfg0.N) :
    (dat0 V c).flushed 7 t = ((cfg0.win 7).blk t).view.read (Elt Ideal) (product x1 wv) := by
  show (cfg0.win 7).cut (grid0.coords t) ((dat0 V c).after 7 t) = _
  rw [after0_7]
  unfold out0_7
  rw [View.canon_unit_zero hz]
  simp only [View.ld_unit_zero (S := S2048x512) hz, View.ld_unit_zero (S := S512x512) hz]
  funext j
  have ht : t.val < 4 := lt_of_lt_of_eq t.isLt N_0
  obtain ⟨e0, e1⟩ := index0_7 t
  have hj0 : (j 0).val < 2048 := (j 0).isLt
  have hj1 : (j 1).val < 512 := (j 1).isLt
  have hx : ((cfg0.win 7).xinj (grid0.coords t) j : S2048x512.Idx) = ix2 ⟨(j 0).val, hj0⟩ ⟨(j 1).val, hj1⟩ := by
    funext a; match a with | ⟨0, _⟩ => rfl | ⟨1, _⟩ => rfl
  have hi : (((cfg0.win 7).blk t).view.emb j : S8192x512.Idx)
      = ix2 ⟨2048 * t.val + (j 0).val, by omega⟩ ⟨(j 1).val, hj1⟩ := by
    funext a; apply Fin.ext
    match a with
    | ⟨0, _⟩ => show win0_7.index t (0 : Fin 2) * 2048 + 1 * (j 0).val = 2048 * t.val + (j 0).val; rw [e0]; omega
    | ⟨1, _⟩ => show win0_7.index t (1 : Fin 2) * 512 + 1 * (j 1).val = (j 1).val; rw [e1]; omega
  show k0_pay4 (iblk0 V c 0 t) (iblk0 V c 4 t) ((cfg0.win 7).xinj (grid0.coords t) j)
    = product x1 wv (((cfg0.win 7).blk t).view.emb j)
  refine (congrArg (k0_pay4 (iblk0 V c 0 t) (iblk0 V c 4 t)) hx).trans
    (Eq.trans ?_ (congrArg (product x1 wv) hi).symm)
  exact block_entry (iblk0 V c 0 t) (iblk0 V c 4 t) x1 wv t.val ht
    (fun r k => (act_block0_0 V c t r k (by omega)).trans (h0 _ _))
    (fun k q => (wt_block0_4 V c t k q).trans (h4 _ _)) _ _

theorem mem_blk0_7 (t : Fin cfg0.N) (i : S8192x512.Idx) :
    i ∈ ((cfg0.win 7).blk t).view.set ↔ ∀ a : Fin 2, win0_7.index t a * S2048x512.size a ≤ (i a).val
      ∧ (i a).val < win0_7.index t a * S2048x512.size a + S2048x512.size a := by
  show i ∈ ((View.whole main_v5_2).slice (win0_7.rect t)).set ↔ _
  rw [View.set_slice_whole, Rect.mem_set_unit]
  exact Iff.rfl

theorem cover0_7 (i : S8192x512.Idx) :
    ∃ t : Fin cfg0.N, (cfg0.win 7).flush t = true ∧ i ∈ ((cfg0.win 7).blk t).view.set := by
  have hi0 : (i 0).val < 8192 := (i 0).isLt
  have hi1 : (i 1).val < 512 := (i 1).isLt
  obtain ⟨t, ht⟩ : ∃ t : Fin cfg0.N, t.val = (i 0).val / 2048 :=
    ⟨⟨(i 0).val / 2048, lt_of_lt_of_eq (by omega) N_0.symm⟩, rfl⟩
  refine ⟨t, flush0_7 t, ?_⟩
  obtain ⟨e0, e1⟩ := index0_7 t
  rw [mem_blk0_7]
  intro a
  match a with
  | ⟨0, _⟩ =>
    show win0_7.index t (0 : Fin 2) * 2048 ≤ (i 0).val ∧ (i 0).val < win0_7.index t (0 : Fin 2) * 2048 + 2048
    rw [e0, ht]; omega
  | ⟨1, _⟩ =>
    show win0_7.index t (1 : Fin 2) * 512 ≤ (i 1).val ∧ (i 1).val < win0_7.index t (1 : Fin 2) * 512 + 512
    rw [e1]; omega

end Proj

open Proj

theorem q_val (c : Dev nD) (x1 : Fin 8192 → Fin 512 → ℝ) (wq : Fin 512 → Fin 512 → ℝ)
    (h0 : ∀ p q, (V c main_v0 : Vec Ideal S8192x512 .bf16) (ValueIdx.ix2 p q) = ((x1 p q : ℝ) : EReal))
    (h2 : ∀ p q, (V c main_v2 : Vec Ideal S512x512 .bf16) (ValueIdx.ix2 p q) = ((wq p q : ℝ) : EReal))
    (p : Fin 8192) (q : Fin 512) :
    ((dat0 V c).arrAt 5 cfg0.N : Vec Ideal S8192x512 .bf16) (ValueIdx.ix2 p q) = ((Cert.Spec.proj x1 wq p q : ℝ) : EReal) :=
  congrFun ((dat0 V c).arrAt_eq_of_cover 5 (product x1 wq)
    (fun t _ => flushed0_5_eq V c x1 wq h0 h2 t) cover0_5) (ix2 p q)

theorem k_val (c : Dev nD) (x2 : Fin 8192 → Fin 512 → ℝ) (wk : Fin 512 → Fin 512 → ℝ)
    (h1 : ∀ p q, (V c main_v1 : Vec Ideal S8192x512 .bf16) (ValueIdx.ix2 p q) = ((x2 p q : ℝ) : EReal))
    (h3 : ∀ p q, (V c main_v3 : Vec Ideal S512x512 .bf16) (ValueIdx.ix2 p q) = ((wk p q : ℝ) : EReal))
    (p : Fin 8192) (q : Fin 512) :
    ((dat0 V c).arrAt 6 cfg0.N : Vec Ideal S8192x512 .bf16) (ValueIdx.ix2 p q) = ((Cert.Spec.proj x2 wk p q : ℝ) : EReal) :=
  congrFun ((dat0 V c).arrAt_eq_of_cover 6 (product x2 wk)
    (fun t _ => flushed0_6_eq V c x2 wk h1 h3 t) cover0_6) (ix2 p q)

theorem v_val (c : Dev nD) (x1 : Fin 8192 → Fin 512 → ℝ) (wv : Fin 512 → Fin 512 → ℝ)
    (h0 : ∀ p q, (V c main_v0 : Vec Ideal S8192x512 .bf16) (ValueIdx.ix2 p q) = ((x1 p q : ℝ) : EReal))
    (h4 : ∀ p q, (V c main_v4 : Vec Ideal S512x512 .bf16) (ValueIdx.ix2 p q) = ((wv p q : ℝ) : EReal))
    (p : Fin 8192) (q : Fin 512) :
    ((dat0 V c).arrAt 7 cfg0.N : Vec Ideal S8192x512 .bf16) (ValueIdx.ix2 p q) = ((Cert.Spec.proj x1 wv p q : ℝ) : EReal) :=
  congrFun ((dat0 V c).arrAt_eq_of_cover 7 (product x1 wv)
    (fun t _ => flushed0_7_eq V c x1 wv h0 h4 t) cover0_7) (ix2 p q)

end Cert.KernelIdeal.Hand

end
-- ==== Proof.KI.Reg1Pieces.lean ====
import proofs.«406486_j8624294330992_3_alg».proof.Proof.KI.Reg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

section
variable (c : Dev nD) (i : grid1.Coords) (arg2 : Memref sig .tc .vmem S1024x512 .bf16) (harg2 : arg2.IsWhole) (arg3 : Memref sig .tc .vmem S1024x512 .bf16) (harg3 : arg3.IsWhole)
  (arg4 : Memref sig .tc .vmem S1024x512 .bf16) (harg4 : arg4.IsWhole) (arg5 : Memref sig .tc .vmem S1024x512 .f32) (harg5 : arg5.IsWhole) (arg6 : Memref sig .tc .vmem S1024x1 .f32) (harg6 : arg6.IsWhole)
  (arg7 : Memref sig .tc .vmem S1024x1 .f32) (harg7 : arg7.IsWhole) (arg8 : Memref sig .tc .vmem S1024x512 .f32) (harg8 : arg8.IsWhole)
  (x0 x1 x2 : Vec F S1024x512 .bf16) (xs0 xs1 : Vec F S1024x1 .f32) (xs2 : Vec F S1024x512 .f32)

/-- Where `ki = 0` each scratch buffer is reset and then updated from the one key/value block: read back, the update of the reset value. -/
theorem pieces1_A (hc0 : cond1_0 i) (hc1 : ¬cond1_1 i) :
    (readBack (kernelRun1_A c i arg2 harg2 arg3 harg3 arg4 harg4 arg5 harg5 arg6 harg6 arg7 harg7 arg8 harg8 hc0 hc1 x0 x1 x2)).2.1 = k1_pay2 (k1_pay8 x0 x1 (k1_pay4 (F := F)))
    ∧ (readBack (kernelRun1_A c i arg2 harg2 arg3 harg3 arg4 harg4 arg5 harg5 arg6 harg6 arg7 harg7 arg8 harg8 hc0 hc1 x0 x1 x2)).2.2.1 = k1_pay11 i x0 x1 (k1_pay4 (F := F)) (k1_pay4 (F := F)) (k1_pay5 (F := F))
    ∧ (readBack (kernelRun1_A c i arg2 harg2 arg3 harg3 arg4 harg4 arg5 harg5 arg6 harg6 arg7 harg7 arg8 harg8 hc0 hc1 x0 x1 x2)).2.2.2
        = k1_pay1 (k1_pay9 i x0 x1 (k1_pay4 (F := F)) (k1_pay4 (F := F))) (k1_pay10 x0 x1 (k1_pay4 (F := F))) x2 (k1_pay6 (F := F)) := by
  obtain ⟨h0, h1, h2⟩ := cover1_A c i arg2 harg2 arg3 harg3 arg4 harg4 arg5 harg5 arg6 harg6 arg7 harg7 arg8 harg8 x0 x1 x2 hc0 hc1
  unfold readBack; dsimp only
  refine ⟨?_, ?_, ?_⟩ <;>
  · first | rw [View.read_writes_eq_canon _ _ _ h0] | rw [View.read_writes_eq_canon _ _ _ h1] | rw [View.read_writes_eq_canon _ _ _ h2]
    unfold kernelRun1_A
    dsimp only
    try sl_unfold_words
    first | rw [View.canon_cons_unit_zero (S := S1024x1) hz1] | rw [View.canon_cons_unit_zero (S := S1024x512) hz1]
    simp only [View.readAt_eq_ld, harg2.read_unread, harg3.read_unread, harg4.read_unread, harg6.read_unread, harg7.read_unread, harg8.read_unread,
      View.readCov_unit_zero (S := S1024x512) _ hz1, View.readCov_unit_zero (S := S1024x1) _ hz1,
      View.ld_unit_zero (S := S1024x512) hz1, View.ld_unit_zero (S := S1024x1) hz1, shapeCast_self]

/-- Elsewhere each is updated from what it held. -/
theorem pieces1_B (hc0 : ¬cond1_0 i) (hc1 : ¬cond1_1 i) :
    (readBack (kernelRun1_B c i arg2 harg2 arg3 harg3 arg4 harg4 arg5 harg5 arg6 harg6 arg7 harg7 arg8 harg8 hc0 hc1 x0 x1 x2 xs0 xs1 xs2)).2.1 = k1_pay2 (k1_pay8 x0 x1 xs0)
    ∧ (readBack (kernelRun1_B c i arg2 harg2 arg3 harg3 arg4 harg4 arg5 harg5 arg6 harg6 arg7 harg7 arg8 harg8 hc0 hc1 x0 x1 x2 xs0 xs1 xs2)).2.2.1 = k1_pay11 i x0 x1 xs0 xs0 xs1
    ∧ (readBack (kernelRun1_B c i arg2 harg2 arg3 harg3 arg4 harg4 arg5 harg5 arg6 harg6 arg7 harg7 arg8 harg8 hc0 hc1 x0 x1 x2 xs0 xs1 xs2)).2.2.2 = k1_pay1 (k1_pay9 i x0 x1 xs0 xs0) (k1_pay10 x0 x1 xs0) x2 xs2 := by
  obtain ⟨h0, h1, h2⟩ := cover1_B c i arg2 harg2 arg3 harg3 arg4 harg4 arg5 harg5 arg6 harg6 arg7 harg7 arg8 harg8 x0 x1 x2 xs0 xs1 xs2 hc0 hc1
  unfold readBack; dsimp only
  refine ⟨?_, ?_, ?_⟩ <;>
  · first | rw [View.read_writes_eq_canon _ _ _ h0] | rw [View.read_writes_eq_canon _ _ _ h1] | rw [View.read_writes_eq_canon _ _ _ h2]
    unfold kernelRun1_B
    dsimp only
    try sl_unfold_words
    first | rw [View.canon_unit_zero (S := S1024x1) hz1] | rw [View.canon_unit_zero (S := S1024x512) hz1]
    simp only [View.readAt_eq_ld, harg2.read_unread, harg3.read_unread, harg4.read_unread, harg6.read_unread, harg7.read_unread, harg8.read_unread,
      View.readCov_unit_zero (S := S1024x512) _ hz1, View.readCov_unit_zero (S := S1024x1) _ hz1,
      View.ld_unit_zero (S := S1024x512) hz1, View.ld_unit_zero (S := S1024x1) hz1, shapeCast_self]

/-- Where `ki = 7` the output block is stored as well: the accumulator, as just updated, divided row by row by the running sum, as just updated. -/
theorem pieces1_C (hc0 : ¬cond1_0 i) (hc1 : cond1_1 i) :
    (readBack (kernelRun1_C c i arg2 harg2 arg3 harg3 arg4 harg4 arg5 harg5 arg6 harg6 arg7 harg7 arg8 harg8 hc0 hc1 x0 x1 x2 xs0 xs1 xs2)).1
        = k1_pay3 (k1_pay1 (k1_pay9 i x0 x1 xs0 xs0) (k1_pay10 x0 x1 xs0) x2 xs2) (k1_pay11 i x0 x1 xs0 xs0 xs1)
    ∧ (readBack (kernelRun1_C c i arg2 harg2 arg3 harg3 arg4 harg4 arg5 harg5 arg6 harg6 arg7 harg7 arg8 harg8 hc0 hc1 x0 x1 x2 xs0 xs1 xs2)).2.1 = k1_pay2 (k1_pay8 x0 x1 xs0)
    ∧ (readBack (kernelRun1_C c i arg2 harg2 arg3 harg3 arg4 harg4 arg5 harg5 arg6 harg6 arg7 harg7 arg8 harg8 hc0 hc1 x0 x1 x2 xs0 xs1 xs2)).2.2.1 = k1_pay11 i x0 x1 xs0 xs0 xs1
    ∧ (readBack (kernelRun1_C c i arg2 harg2 arg3 harg3 arg4 harg4 arg5 harg5 arg6 harg6 arg7 harg7 arg8 harg8 hc0 hc1 x0 x1 x2 xs0 xs1 xs2)).2.2.2 = k1_pay1 (k1_pay9 i x0 x1 xs0 xs0) (k1_pay10 x0 x1 xs0) x2 xs2 := by
  obtain ⟨h0, h1, h2, h3⟩ := cover1_C c i arg2 harg2 arg3 harg3 arg4 harg4 arg5 harg5 arg6 harg6 arg7 harg7 arg8 harg8 x0 x1 x2 xs0 xs1 xs2 hc0 hc1
  unfold readBack; dsimp only
  refine ⟨?_, ?_, ?_, ?_⟩ <;>
  · first | rw [View.read_writes_eq_canon _ _ _ h0] | rw [View.read_writes_eq_canon _ _ _ h1] | rw [View.read_writes_eq_canon _ _ _ h2] | rw [View.read_writes_eq_canon _ _ _ h3]
    unfold kernelRun1_C
    dsimp only
    try sl_unfold_words
    first | rw [View.canon_unit_zero (S := S1024x1) hz1] | rw [View.canon_unit_zero (S := S1024x512) hz1]
    simp only [View.readAt_eq_ld, harg2.read_unread, harg3.read_unread, harg4.read_unread, harg6.read_unread, harg7.read_unread, harg8.read_unread,
      View.readCov_unit_zero (S := S1024x512) _ hz1, View.readCov_unit_zero (S := S1024x1) _ hz1,
      View.ld_unit_zero (S := S1024x512) hz1, View.ld_unit_zero (S := S1024x1) hz1, shapeCast_self]

end

variable (V : (c : Dev nD) → (b : Ref sig .tc) → Buf (Elt F) ((c : Thread nD τ).loc b))

abbrev qblk1 (c : Dev nD) (t : Fin cfg1.N) : Vec F S1024x512 .bf16 := iblk1 V c 0 t
abbrev kblk1 (c : Dev nD) (t : Fin cfg1.N) : Vec F S1024x512 .bf16 := iblk1 V c 1 t
abbrev vblk1 (c : Dev nD) (t : Fin cfg1.N) : Vec F S1024x512 .bf16 := iblk1 V c 2 t
abbrev mAt1 (c : Dev nD) (n : ℕ) (hn : n < cfg1.N) : Vec F S1024x1 .f32 := (outsAt1 V c n hn).2.1
abbrev lAt1 (c : Dev nD) (n : ℕ) (hn : n < cfg1.N) : Vec F S1024x1 .f32 := (outsAt1 V c n hn).2.2.1
abbrev accAt1 (c : Dev nD) (n : ℕ) (hn : n < cfg1.N) : Vec F S1024x512 .f32 := (outsAt1 V c n hn).2.2.2
abbrev outAt1 (c : Dev nD) (n : ℕ) (hn : n < cfg1.N) : Vec F S1024x512 .f32 := (outsAt1 V c n hn).1

/-- After the first key block of a query row: the update of the reset values by that point's blocks. -/
theorem first1 (c : Dev nD) (t : Fin cfg1.N) (h0 : t.val % 8 = 0) :
    mAt1 V c t.val t.isLt = k1_pay2 (k1_pay8 (qblk1 V c t) (kblk1 V c t) (k1_pay4 (F := F)))
    ∧ lAt1 V c t.val t.isLt = k1_pay11 (grid1.coords t) (qblk1 V c t) (kblk1 V c t) (k1_pay4 (F := F)) (k1_pay4 (F := F)) (k1_pay5 (F := F))
    ∧ accAt1 V c t.val t.isLt = k1_pay1 (k1_pay9 (grid1.coords t) (qblk1 V c t) (kblk1 V c t) (k1_pay4 (F := F)) (k1_pay4 (F := F)))
        (k1_pay10 (qblk1 V c t) (kblk1 V c t) (k1_pay4 (F := F))) (vblk1 V c t) (k1_pay6 (F := F)) := by
  have h1 : ¬t.val % 8 = 7 := by omega
  show (outsAt1 V c t.val t.isLt).2.1 = _ ∧ (outsAt1 V c t.val t.isLt).2.2.1 = _ ∧ (outsAt1 V c t.val t.isLt).2.2.2 = _
  rw [outsAt1_A V c t h0 h1]
  exact pieces1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) ((hcond1_0 t).mpr h0) (fun h => h1 ((hcond1_1 t).mp h))

/-- After any later key block of the row: the update, by that point's blocks, of what the point before left. -/
theorem later1 (c : Dev nD) (t : Fin cfg1.N) (h0 : ¬t.val % 8 = 0) :
    mAt1 V c t.val t.isLt = k1_pay2 (k1_pay8 (qblk1 V c t) (kblk1 V c t) (mAt1 V c (t.val - 1) (Nat.lt_of_le_of_lt (Nat.sub_le _ _) t.isLt)))
    ∧ lAt1 V c t.val t.isLt = k1_pay11 (grid1.coords t) (qblk1 V c t) (kblk1 V c t) (mAt1 V c (t.val - 1) (Nat.lt_of_le_of_lt (Nat.sub_le _ _) t.isLt)) (mAt1 V c (t.val - 1) (Nat.lt_of_le_of_lt (Nat.sub_le _ _) t.isLt)) (lAt1 V c (t.val - 1) (Nat.lt_of_le_of_lt (Nat.sub_le _ _) t.isLt))
    ∧ accAt1 V c t.val t.isLt = k1_pay1 (k1_pay9 (grid1.coords t) (qblk1 V c t) (kblk1 V c t) (mAt1 V c (t.val - 1) (Nat.lt_of_le_of_lt (Nat.sub_le _ _) t.isLt)) (mAt1 V c (t.val - 1) (Nat.lt_of_le_of_lt (Nat.sub_le _ _) t.isLt)))
        (k1_pay10 (qblk1 V c t) (kblk1 V c t) (mAt1 V c (t.val - 1) (Nat.lt_of_le_of_lt (Nat.sub_le _ _) t.isLt))) (vblk1 V c t) (accAt1 V c (t.val - 1) (Nat.lt_of_le_of_lt (Nat.sub_le _ _) t.isLt)) := by
  show (outsAt1 V c t.val t.isLt).2.1 = _ ∧ (outsAt1 V c t.val t.isLt).2.2.1 = _ ∧ (outsAt1 V c t.val t.isLt).2.2.2 = _
  by_cases h1 : t.val % 8 = 7
  · rw [outsAt1_C V c t h0 h1]
    exact (pieces1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) _ _ _ (fun h => h0 ((hcond1_0 t).mp h)) ((hcond1_1 t).mpr h1)).2
  · rw [outsAt1_B V c t h0 h1]
    exact pieces1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t) _ _ _ (fun h => h0 ((hcond1_0 t).mp h)) (fun h => h1 ((hcond1_1 t).mp h))

/-- After the last key block of a query row the output block is that point's accumulator divided row by row by that point's running sum. -/
theorem last1 (c : Dev nD) (t : Fin cfg1.N) (h1 : t.val % 8 = 7) :
    outAt1 V c t.val t.isLt = k1_pay3 (accAt1 V c t.val t.isLt) (lAt1 V c t.val t.isLt) := by
  have h0 : ¬t.val % 8 = 0 := by omega
  show (outsAt1 V c t.val t.isLt).1 = k1_pay3 (outsAt1 V c t.val t.isLt).2.2.2 (outsAt1 V c t.val t.isLt).2.2.1
  rw [outsAt1_C V c t h0 h1]
  obtain ⟨ho, -, hl, ha⟩ := pieces1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (iblk1 V c 0 t) (iblk1 V c 1 t) (iblk1 V c 2 t)
    (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
    (fun h => h0 ((hcond1_0 t).mp h)) ((hcond1_1 t).mpr h1)
  exact ho.trans (congrArg₂ k1_pay3 ha hl).symm

end Cert.KernelIdeal.Hand

end
-- ==== Proof.KI.Payload.lean ====
import proofs.«406486_j8624294330992_3_alg».proof.Proof.Gen.KernelIdeal.Skeleton
import proofs.«406486_j8624294330992_3_alg».proof.Proof.Spec
import proofs.«406486_j8624294330992_3_alg».proof.Proof.Consts
import proofs.«406486_j8624294330992_3_alg».proof.Proof.Alg
import proofs.«406486_j8624294330992_3_alg».proof.Proof.RefDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand.Pay

open Cert.KernelIdeal Cert.KernelIdeal.Gen
open Idealize.ShloMosaic Idealize.ShloMosaic.ValueIdx

def tileScore (qb kb : Fin 1024 → Fin 512 → ℝ) (r jj : Fin 1024) : ℝ :=
  Cert.Spec.lrelu Cert.Consts.slope (∑ d : Fin 512, qb r d * kb jj d)

def newMax (qb kb : Fin 1024 → Fin 512 → ℝ) (μ : Fin 1024 → ℝ) (r : Fin 1024) : ℝ :=
  max (μ r) (Finset.univ.sup' Finset.univ_nonempty (fun jj : Fin 1024 => tileScore qb kb r jj))

section Tools
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Tools

theorem lhs_qk_0 (j : S1024x1024.Idx) (k : dot_S1024x512_S1024x512_S1024x1024_1_1_0_0_n_n.contr.Idx) :
    (dot_S1024x512_S1024x512_S1024x1024_1_1_0_0_n_n.lhsIdx j k 0 : ℕ) = j 0 := by
  simp [DotDims.lhsIdx, dot_S1024x512_S1024x512_S1024x1024_1_1_0_0_n_n]; rfl
theorem lhs_qk_1 (j : S1024x1024.Idx) (k : dot_S1024x512_S1024x512_S1024x1024_1_1_0_0_n_n.contr.Idx) :
    (dot_S1024x512_S1024x512_S1024x1024_1_1_0_0_n_n.lhsIdx j k 1 : ℕ) = k ⟨0, by decide⟩ := by
  simp [DotDims.lhsIdx, dot_S1024x512_S1024x512_S1024x1024_1_1_0_0_n_n]; rfl
theorem rhs_qk_0 (j : S1024x1024.Idx) (k : dot_S1024x512_S1024x512_S1024x1024_1_1_0_0_n_n.contr.Idx) :
    (dot_S1024x512_S1024x512_S1024x1024_1_1_0_0_n_n.rhsIdx j k 0 : ℕ) = j 1 := by
  simp [DotDims.rhsIdx, dot_S1024x512_S1024x512_S1024x1024_1_1_0_0_n_n]; rfl
theorem rhs_qk_1 (j : S1024x1024.Idx) (k : dot_S1024x512_S1024x512_S1024x1024_1_1_0_0_n_n.contr.Idx) :
    (dot_S1024x512_S1024x512_S1024x1024_1_1_0_0_n_n.rhsIdx j k 1 : ℕ) = k ⟨0, by decide⟩ := by
  simp [DotDims.rhsIdx, dot_S1024x512_S1024x512_S1024x1024_1_1_0_0_n_n]; rfl

theorem qk_apply (A B : FVec Ideal S1024x512 .bf16) (r jj : Fin 1024) :
    matmul dot_S1024x512_S1024x512_S1024x1024_1_1_0_0_n_n none A B (constant (F := Ideal) S1024x1024 .f32 0x00000000#32) (ix2 r jj)
      = ∑ d : Fin 512, A (ix2 r d) * B (ix2 jj d) := by
  show FloatOps.matmul _ none A B _ (ix2 r jj) = _
  rw [Ideal.matmul_constant_zero_apply,
    ← Equiv.sum_comp (contrEquiv1 dot_S1024x512_S1024x512_S1024x1024_1_1_0_0_n_n 512 rfl rfl).symm]
  refine Finset.sum_congr rfl fun c _ => ?_
  have hc := contrEquiv1_symm_val dot_S1024x512_S1024x512_S1024x1024_1_1_0_0_n_n 512 rfl rfl c
  congr 2
  · exact Shape.idx_ext₂ (lhs_qk_0 _ _) ((lhs_qk_1 _ _).trans hc)
  · exact Shape.idx_ext₂ (rhs_qk_0 _ _) ((rhs_qk_1 _ _).trans hc)

theorem pv_apply (A : FVec Ideal S1024x1024 .bf16) (B : FVec Ideal S1024x512 .bf16) (r : Fin 1024) (d : Fin 512) :
    matmul dot_S1024x1024_S1024x512_S1024x512_1_0_0_1_n_n none A B (constant (F := Ideal) S1024x512 .f32 0x00000000#32) (ix2 r d)
      = ∑ jj : Fin 1024, A (ix2 r jj) * B (ix2 jj d) :=
  (Ideal.matmul_constant_zero_apply _ none A B (ix2 r d)).trans (Cert.ReferenceIdeal.RefDot.plain_sum _ rfl rfl rfl rfl rfl rfl A B r d)

theorem lift_row (h : S1024x1024.Reduces [1] S1024) (r jj : Fin 1024) : h.lift (ix1 r) jj = ix2 r jj :=
  Shape.idx_ext₂ rfl rfl

theorem rowSum_apply (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ jj : Fin 1024, src (ix2 r jj) := by
  refine (Ideal.multiReduction_add_single src 0x00000000#32 h hφ hacc (ix1 r)).trans ?_
  show ∑ jj : Fin 1024, src (h.lift (ix1 r) jj) = _
  exact Finset.sum_congr rfl fun jj _ => congrArg src (lift_row h r jj)

theorem rowMax_apply (src : FVec Ideal S1024x1024 .f32) (h : S1024x1024.Reduces [1] S1024) (hφ : FKind.Formats .f32)
    (hacc : (0xFF800000#32 : BitVec 32) = FKind.maximumf.neutral .f32 hφ) (r : Fin 1024) :
    multiReduction .maximumf [1] S1024 src 0xFF800000#32 h hφ hacc (ix1 r)
      = (Finset.univ : Finset (Fin 1024)).fold max (⊥ : EReal) (fun jj => src (ix2 r jj)) := by
  refine (Ideal.multiReduction_maximumf_single src 0xFF800000#32 h hφ hacc (ix1 r)).trans ?_
  show (Finset.univ : Finset (Fin 1024)).fold max (Ideal.ofBits .f32 0xFF800000#32) (fun jj => src (h.lift (ix1 r) jj)) = _
  rw [Cert.Consts.ofBits_neg_inf]
  exact congrArg (fun f => (Finset.univ : Finset (Fin 1024)).fold max (⊥ : EReal) f) (funext fun jj => congrArg src (lift_row h r jj))

theorem colMax_apply (col : FVec Ideal S1024x1 .f32) (src : FVec Ideal S1024x1024 .f32) (h : S1024x1024.Reduces [1] S1024)
    (hφ : FKind.Formats .f32) (hacc : (0xFF800000#32 : BitVec 32) = FKind.maximumf.neutral .f32 hφ)
    (hc : S1024.ShapeCasts S1024x1) (r : Fin 1024) :
    maximumf col (shapeCast S1024x1 (multiReduction .maximumf [1] S1024 src 0xFF800000#32 h hφ hacc) hc) (ix2 r 0)
      = max (col (ix2 r 0)) ((Finset.univ : Finset (Fin 1024)).fold max (⊥ : EReal) (fun jj => src (ix2 r jj))) := by
  rw [maximumf_apply, shapeCast_a_a1_apply, rowMax_apply]

theorem lrelu_coe (c s : ℝ) :
    Scalar.select (Ideal.cmp .ogt (s : EReal) (0 : EReal)) (s : EReal) ((c : EReal) * (s : EReal))
      = ((Cert.Spec.lrelu c s : ℝ) : EReal) := by
  unfold Cert.Spec.lrelu
  by_cases h : 0 < s
  · have hc : Ideal.cmp .ogt (s : EReal) (0 : EReal) = 1#1 := by
      show BitVec.ofBool (decide ((0 : EReal) < (s : EReal))) = 1#1
      rw [decide_eq_true (EReal.coe_pos.mpr h)]; rfl
    rw [hc, select_one, if_pos h]
  · have hc : Ideal.cmp .ogt (s : EReal) (0 : EReal) = 0#1 := by
      show BitVec.ofBool (decide ((0 : EReal) < (s : EReal))) = 0#1
      rw [decide_eq_false (fun h' => h (EReal.coe_pos.mp h'))]; rfl
    rw [hc, select_zero, if_neg h, EReal.coe_mul]

theorem first_tile_word (h : ℕ) (hh : h < 8) :
    Scalar.cmpi .eq (BitVec.ofNat 32 h) 0#32 = if h = 0 then 1#1 else 0#1 := by
  interval_cases h <;> rfl

variable {x0 x1 x2 : Vec Ideal S1024x512 .bf16} {s0 s0' s1 : Vec Ideal S1024x1 .f32} {s2 : Vec Ideal S1024x512 .f32}
variable {qb kb vb : Fin 1024 → Fin 512 → ℝ} {μ μ' lam : Fin 1024 → ℝ} {α : Fin 1024 → Fin 512 → ℝ}

theorem qk_coe (hq : ∀ r d, x0 (ix2 r d) = ((qb r d : ℝ) : EReal)) (hk : ∀ jj d, x1 (ix2 jj d) = ((kb jj d : ℝ) : EReal))
    (r jj : Fin 1024) :
    matmul (φ₁ := .bf16) (φ₂ := .bf16) dot_S1024x512_S1024x512_S1024x1024_1_1_0_0_n_n none
        (shapeCast S1024x512 x0 shapeCasts_S1024x512_S1024x512) (shapeCast S1024x512 x1 shapeCasts_S1024x512_S1024x512)
        (constant (F := Ideal) S1024x1024 .f32 0x00000000#32) (ix2 r jj)
      = ((∑ d : Fin 512, qb r d * kb jj d : ℝ) : EReal) := by
  rw [shapeCast_self, shapeCast_self]
  refine (qk_apply x0 x1 r jj).trans ?_
  exact Cert.Alg.coe_sum_of_eq _ _ _ fun d _ => by rw [hq, hk, EReal.coe_mul]

theorem pay7_apply (hq : ∀ r d, x0 (ix2 r d) = ((qb r d : ℝ) : EReal)) (hk : ∀ jj d, x1 (ix2 jj d) = ((kb jj d : ℝ) : EReal))
    (r jj : Fin 1024) : k1_pay7 (F := Ideal) x0 x1 (ix2 r jj) = ((tileScore qb kb r jj : ℝ) : EReal) := by
  have hread : k1_pay7 (F := Ideal) x0 x1 (ix2 r jj)
      = (fun s : EReal => Scalar.select (Ideal.cmp .ogt s (Ideal.ofBits .f32 0x00000000#32)) s (Ideal.ofBits .f32 0x3C23D70A#32 * s))
        (matmul (φ₁ := .bf16) (φ₂ := .bf16) dot_S1024x512_S1024x512_S1024x1024_1_1_0_0_n_n none
          (shapeCast S1024x512 x0 shapeCasts_S1024x512_S1024x512) (shapeCast S1024x512 x1 shapeCasts_S1024x512_S1024x512)
          (constant (F := Ideal) S1024x1024 .f32 0x00000000#32) (ix2 r jj)) := rfl
  rw [hread, qk_coe hq hk, Cert.Consts.ofBits_slope, Cert.Consts.ofBits_zero]
  exact lrelu_coe _ _

theorem pay8_apply (hq : ∀ r d, x0 (ix2 r d) = ((qb r d : ℝ) : EReal)) (hk : ∀ jj d, x1 (ix2 jj d) = ((kb jj d : ℝ) : EReal))
    (hm : ∀ r, s0 (ix2 r 0) = ((μ r : ℝ) : EReal)) (r : Fin 1024) :
    k1_pay8 (F := Ideal) x0 x1 s0 (ix2 r 0) = ((newMax qb kb μ r : ℝ) : EReal) := by
  refine (colMax_apply s0 (k1_pay7 (F := Ideal) x0 x1) _ _ _ _ r).trans ?_
  rw [hm, Cert.Alg.fold_max_coe_of_eq Finset.univ Finset.univ_nonempty _ (fun jj => tileScore qb kb r jj)
    (fun jj _ => pay7_apply hq hk r jj)]
  exact Cert.Alg.coe_max _ _

theorem pay2_apply (v : FVec Ideal S1024x1 .f32) (r : Fin 1024) : k1_pay2 (F := Ideal) v (ix2 r 0) = v (ix2 r 0) := by
  show shapeCast S1024x1 v shapeCasts_S1024x1_S1024x1 (ix2 r 0) = _
  rw [shapeCast_self]

theorem pay9_first (i : grid1.Coords) (hi : (i 1).val = 0) (r : Fin 1024) :
    k1_pay9 (F := Ideal) i x0 x1 s0 s0' (ix2 r 0) = 0 := by
  have hc : Scalar.cmpi .eq (BitVec.ofNat 32 (i 1).val) 0#32 = 1#1 := by
    rw [first_tile_word _ (i 1).isLt, if_pos hi]
  show Scalar.select (Scalar.cmpi .eq (BitVec.ofNat 32 (i 1).val) 0#32)
      (broadcast S1024x1 (Scalar.ofBits (F := Ideal) .f32 0x00000000#32))
      (exp (subf s0' (k1_pay8 (F := Ideal) x0 x1 s0))) (ix2 r 0) = 0
  rw [hc, select_one]
  exact Cert.Consts.ofBits_zero

theorem pay9_later (i : grid1.Coords) (hi : (i 1).val ≠ 0)
    (hq : ∀ r d, x0 (ix2 r d) = ((qb r d : ℝ) : EReal)) (hk : ∀ jj d, x1 (ix2 jj d) = ((kb jj d : ℝ) : EReal))
    (hm : ∀ r, s0 (ix2 r 0) = ((μ r : ℝ) : EReal)) (hm' : ∀ r, s0' (ix2 r 0) = ((μ' r : ℝ) : EReal)) (r : Fin 1024) :
    k1_pay9 (F := Ideal) i x0 x1 s0 s0' (ix2 r 0) = ((Real.exp (μ' r - newMax qb kb μ r) : ℝ) : EReal) := by
  have hc : Scalar.cmpi .eq (BitVec.ofNat 32 (i 1).val) 0#32 = 0#1 := by
    rw [first_tile_word _ (i 1).isLt, if_neg hi]
  show Scalar.select (Scalar.cmpi .eq (BitVec.ofNat 32 (i 1).val) 0#32)
      (broadcast S1024x1 (Scalar.ofBits (F := Ideal) .f32 0x00000000#32))
      (exp (subf s0' (k1_pay8 (F := Ideal) x0 x1 s0))) (ix2 r 0) = _
  rw [hc, select_zero]
  show Ideal.exp (s0' (ix2 r 0) - k1_pay8 (F := Ideal) x0 x1 s0 (ix2 r 0)) = _
  rw [hm', pay8_apply hq hk hm, ← EReal.coe_sub]
  rfl

theorem pay10_apply (hq : ∀ r d, x0 (ix2 r d) = ((qb r d : ℝ) : EReal)) (hk : ∀ jj d, x1 (ix2 jj d) = ((kb jj d : ℝ) : EReal))
    (hm : ∀ r, s0 (ix2 r 0) = ((μ r : ℝ) : EReal)) (r jj : Fin 1024) :
    k1_pay10 (F := Ideal) x0 x1 s0 (ix2 r jj) = ((Real.exp (tileScore qb kb r jj - newMax qb kb μ r) : ℝ) : EReal) := by
  show Ideal.exp (k1_pay7 (F := Ideal) x0 x1 (ix2 r jj)
      - broadcastTo S1024x1024 (k1_pay8 (F := Ideal) x0 x1 s0) broadcasts_S1024x1_S1024x1024 (ix2 r jj)) = _
  rw [broadcastTo_a1_ab_apply, pay7_apply hq hk, pay8_apply hq hk hm, ← EReal.coe_sub]
  rfl

theorem pay11_apply (i : grid1.Coords)
    (hq : ∀ r d, x0 (ix2 r d) = ((qb r d : ℝ) : EReal)) (hk : ∀ jj d, x1 (ix2 jj d) = ((kb jj d : ℝ) : EReal))
    (hm : ∀ r, s0 (ix2 r 0) = ((μ r : ℝ) : EReal)) (hl : ∀ r, s1 (ix2 r 0) = ((lam r : ℝ) : EReal)) (r : Fin 1024) :
    k1_pay11 (F := Ideal) i x0 x1 s0 s0' s1 (ix2 r 0)
      = k1_pay9 (F := Ideal) i x0 x1 s0 s0' (ix2 r 0) * ((lam r : ℝ) : EReal)
        + ((∑ jj : Fin 1024, Real.exp (tileScore qb kb r jj - newMax qb kb μ r) : ℝ) : EReal) := by
  show shapeCast S1024x1 (addf (mulf (k1_pay9 (F := Ideal) i x0 x1 s0 s0') s1)
      (shapeCast S1024x1 (multiReduction .add [1] S1024 (k1_pay10 (F := Ideal) x0 x1 s0) 0x00000000#32
        reduces_S1024x1024_S1024 (.inl rfl) rfl) shapeCasts_S1024_S1024x1)) shapeCasts_S1024x1_S1024x1 (ix2 r 0) = _
  rw [shapeCast_self]
  show k1_pay9 (F := Ideal) i x0 x1 s0 s0' (ix2 r 0) * s1 (ix2 r 0)
      + shapeCast S1024x1 (multiReduction .add [1] S1024 (k1_pay10 (F := Ideal) x0 x1 s0) 0x00000000#32
        reduces_S1024x1024_S1024 (.inl rfl) rfl) shapeCasts_S1024_S1024x1 (ix2 r 0) = _
  refine congrArg₂ (· + ·) (congrArg _ (hl r)) ?_
  refine ((shapeCast_a_a1_apply _ _ r 0).trans (rowSum_apply _ _ _ _ r)).trans ?_
  exact Cert.Alg.coe_sum_of_eq _ _ _ fun jj _ => pay10_apply hq hk hm r jj

theorem pay1_apply (a : FVec Ideal S1024x1 .f32) (p : FVec Ideal S1024x1024 .f32) (P : Fin 1024 → Fin 1024 → ℝ)
    (hp : ∀ r jj, p (ix2 r jj) = ((P r jj : ℝ) : EReal)) (hv : ∀ jj d, x2 (ix2 jj d) = ((vb jj d : ℝ) : EReal))
    (ha : ∀ r d, s2 (ix2 r d) = ((α r d : ℝ) : EReal)) (r : Fin 1024) (d : Fin 512) :
    k1_pay1 (F := Ideal) a p x2 s2 (ix2 r d)
      = a (ix2 r 0) * ((α r d : ℝ) : EReal) + ((∑ jj : Fin 1024, P r jj * vb jj d : ℝ) : EReal) := by
  show shapeCast S1024x512 (addf (mulf (broadcastTo S1024x512 a broadcasts_S1024x1_S1024x512) s2)
      (matmul (φ₁ := .bf16) (φ₂ := .bf16) dot_S1024x1024_S1024x512_S1024x512_1_0_0_1_n_n none (truncf .bf16 p bitsLt_bf16_f32)
        (shapeCast S1024x512 x2 shapeCasts_S1024x512_S1024x512) (constant (F := Ideal) S1024x512 .f32 0x00000000#32)))
      shapeCasts_S1024x512_S1024x512 (ix2 r d) = _
  rw [shapeCast_self, shapeCast_self]
  show broadcastTo S1024x512 a broadcasts_S1024x1_S1024x512 (ix2 r d) * s2 (ix2 r d)
      + matmul (φ₁ := .bf16) (φ₂ := .bf16) dot_S1024x1024_S1024x512_S1024x512_1_0_0_1_n_n none (truncf .bf16 p bitsLt_bf16_f32) x2
        (constant (F := Ideal) S1024x512 .f32 0x00000000#32) (ix2 r d) = _
  refine congrArg₂ (· + ·) (congrArg₂ (· * ·) (broadcastTo_a1_ab_apply _ _ r d) (ha r d)) ?_
  refine (pv_apply _ x2 r d).trans ?_
  exact Cert.Alg.coe_sum_of_eq _ _ _ fun jj _ => by rw [truncf_apply, hp, hv, EReal.coe_mul]

theorem pay3_apply (ha : ∀ r d, s2 (ix2 r d) = ((α r d : ℝ) : EReal)) (hl : ∀ r, s1 (ix2 r 0) = ((lam r : ℝ) : EReal))
    (r : Fin 1024) (d : Fin 512) (hne : lam r ≠ 0) :
    k1_pay3 (F := Ideal) s2 s1 (ix2 r d) = ((α r d / lam r : ℝ) : EReal) := by
  show Ideal.div (s2 (ix2 r d)) (broadcastTo S1024x512 s1 broadcasts_S1024x1_S1024x512 (ix2 r d)) = _
  rw [broadcastTo_a1_ab_apply, ha, hl]
  exact Cert.Alg.div_coe_coe _ _ hne

theorem pay4_apply (r : Fin 1024) : (k1_pay4 (F := Ideal)) (ix2 r 0) = ((Cert.Consts.negBig : ℝ) : EReal) := by
  show shapeCast S1024x1 (broadcast S1024x1 (Scalar.ofBits (F := Ideal) .f32 0xFF333332#32)) shapeCasts_S1024x1_S1024x1 (ix2 r 0) = _
  rw [shapeCast_self]
  exact Cert.Consts.ofBits_negBig

theorem pay5_apply (r : Fin 1024) : (k1_pay5 (F := Ideal)) (ix2 r 0) = 0 := by
  show shapeCast S1024x1 (broadcast S1024x1 (Scalar.ofBits (F := Ideal) .f32 0x00000000#32)) shapeCasts_S1024x1_S1024x1 (ix2 r 0) = _
  rw [shapeCast_self]
  exact Cert.Consts.ofBits_zero

theorem pay6_apply (r : Fin 1024) (d : Fin 512) : (k1_pay6 (F := Ideal)) (ix2 r d) = 0 := by
  show shapeCast S1024x512 (broadcast S1024x512 (Scalar.ofBits (F := Ideal) .f32 0x00000000#32)) shapeCasts_S1024x512_S1024x512 (ix2 r d) = _
  rw [shapeCast_self]
  exact Cert.Consts.ofBits_zero

end Cert.KernelIdeal.Hand.Pay

end
-- ==== Proof.KI.AttnStep.lean ====
import proofs.«406486_j8624294330992_3_alg».proof.Proof.KI.Payload
import proofs.«406486_j8624294330992_3_alg».proof.Proof.Alg

set_option maxRecDepth 16384

noncomputable section

open scoped BigOperators

namespace Cert.KernelIdeal.Hand.Step

open Cert.KernelIdeal Cert.KernelIdeal.Gen
open Idealize.ShloMosaic Idealize.ShloMosaic.ValueIdx
open Cert.KernelIdeal.Hand.Pay

variable {qb kb vb : Fin 1024 → Fin 512 → ℝ} {x0 x1 x2 : Vec Ideal S1024x512 .bf16}

theorem first (i : grid1.Coords) (hi : (i 1).val = 0)
    (hq : ∀ r d, x0 (ix2 r d) = ((qb r d : ℝ) : EReal)) (hk : ∀ jj d, x1 (ix2 jj d) = ((kb jj d : ℝ) : EReal))
    (hv : ∀ jj d, x2 (ix2 jj d) = ((vb jj d : ℝ) : EReal)) :
    ∃ μ' : Fin 1024 → ℝ,
      (∀ r, k1_pay2 (F := Ideal) (k1_pay8 x0 x1 (k1_pay4 (F := Ideal))) (ix2 r 0) = ((μ' r : ℝ) : EReal)) ∧
      (∀ r, k1_pay11 (F := Ideal) i x0 x1 (k1_pay4 (F := Ideal)) (k1_pay4 (F := Ideal)) (k1_pay5 (F := Ideal)) (ix2 r 0)
          = ((∑ jj : Fin 1024, Real.exp (tileScore qb kb r jj - μ' r) : ℝ) : EReal)) ∧
      (∀ r d, k1_pay1 (F := Ideal) (k1_pay9 i x0 x1 (k1_pay4 (F := Ideal)) (k1_pay4 (F := Ideal)))
            (k1_pay10 x0 x1 (k1_pay4 (F := Ideal))) x2 (k1_pay6 (F := Ideal)) (ix2 r d)
          = ((∑ jj : Fin 1024, Real.exp (tileScore qb kb r jj - μ' r) * vb jj d : ℝ) : EReal)) := by

  have hm : ∀ r, (k1_pay4 (F := Ideal)) (ix2 r 0) = (((fun _ : Fin 1024 => Cert.Consts.negBig) r : ℝ) : EReal) :=
    fun r => pay4_apply r
  have hl : ∀ r, (k1_pay5 (F := Ideal)) (ix2 r 0) = (((fun _ : Fin 1024 => (0 : ℝ)) r : ℝ) : EReal) :=
    fun r => (pay5_apply r).trans EReal.coe_zero.symm
  have ha : ∀ r d, (k1_pay6 (F := Ideal)) (ix2 r d) = (((fun (_ : Fin 1024) (_ : Fin 512) => (0 : ℝ)) r d : ℝ) : EReal) :=
    fun r d => (pay6_apply r d).trans EReal.coe_zero.symm
  refine ⟨newMax qb kb (fun _ => Cert.Consts.negBig), fun r => ?_, fun r => ?_, fun r d => ?_⟩
  · rw [pay2_apply, pay8_apply hq hk hm r]
  · rw [pay11_apply i hq hk hm hl r, pay9_first i hi r, zero_mul, zero_add]
  · rw [pay1_apply _ _ (fun r jj => Real.exp (tileScore qb kb r jj - newMax qb kb (fun _ => Cert.Consts.negBig) r))
        (fun r jj => pay10_apply hq hk hm r jj) hv ha r d,
      pay9_first i hi r, zero_mul, zero_add]

theorem later (i : grid1.Coords) (hi : (i 1).val ≠ 0)
    (hq : ∀ r d, x0 (ix2 r d) = ((qb r d : ℝ) : EReal)) (hk : ∀ jj d, x1 (ix2 jj d) = ((kb jj d : ℝ) : EReal))
    (hv : ∀ jj d, x2 (ix2 jj d) = ((vb jj d : ℝ) : EReal))
    (s0 s1 : Vec Ideal S1024x1 .f32) (s2 : Vec Ideal S1024x512 .f32)
    (H : Fin 1024 → ℝ → ℝ) (HV : Fin 1024 → Fin 512 → ℝ → ℝ)
    (hH : ∀ r μ μ', Real.exp (μ - μ') * H r μ = H r μ')
    (hHV : ∀ r d μ μ', Real.exp (μ - μ') * HV r d μ = HV r d μ')
    (μ : Fin 1024 → ℝ) (hm : ∀ r, s0 (ix2 r 0) = ((μ r : ℝ) : EReal))
    (hl : ∀ r, s1 (ix2 r 0) = ((H r (μ r) : ℝ) : EReal))
    (ha : ∀ r d, s2 (ix2 r d) = ((HV r d (μ r) : ℝ) : EReal)) :
    ∃ μ' : Fin 1024 → ℝ,
      (∀ r, k1_pay2 (F := Ideal) (k1_pay8 x0 x1 s0) (ix2 r 0) = ((μ' r : ℝ) : EReal)) ∧
      (∀ r, k1_pay11 (F := Ideal) i x0 x1 s0 s0 s1 (ix2 r 0)
          = ((H r (μ' r) + ∑ jj : Fin 1024, Real.exp (tileScore qb kb r jj - μ' r) : ℝ) : EReal)) ∧
      (∀ r d, k1_pay1 (F := Ideal) (k1_pay9 i x0 x1 s0 s0) (k1_pay10 x0 x1 s0) x2 s2 (ix2 r d)
          = ((HV r d (μ' r) + ∑ jj : Fin 1024, Real.exp (tileScore qb kb r jj - μ' r) * vb jj d : ℝ) : EReal)) := by
  have hl' : ∀ r, s1 (ix2 r 0) = (((fun r => H r (μ r)) r : ℝ) : EReal) := hl
  have ha' : ∀ r d, s2 (ix2 r d) = (((fun r d => HV r d (μ r)) r d : ℝ) : EReal) := ha
  refine ⟨newMax qb kb μ, fun r => ?_, fun r => ?_, fun r d => ?_⟩
  · rw [pay2_apply, pay8_apply hq hk hm r]
  · rw [pay11_apply i hq hk hm hl' r, pay9_later i hi hq hk hm hm r, ← EReal.coe_mul, hH, ← EReal.coe_add]
  · rw [pay1_apply _ _ (fun r jj => Real.exp (tileScore qb kb r jj - newMax qb kb μ r))
        (fun r jj => pay10_apply hq hk hm r jj) hv ha' r d,
      pay9_later i hi hq hk hm hm r, ← EReal.coe_mul, hHV, ← EReal.coe_add]

theorem last (s1 : Vec Ideal S1024x1 .f32) (s2 : Vec Ideal S1024x512 .f32) (lam : Fin 1024 → ℝ)
    (α : Fin 1024 → Fin 512 → ℝ) (hl : ∀ r, s1 (ix2 r 0) = ((lam r : ℝ) : EReal))
    (ha : ∀ r d, s2 (ix2 r d) = ((α r d : ℝ) : EReal)) (hne : ∀ r, lam r ≠ 0) (r : Fin 1024) (d : Fin 512) :
    k1_pay3 (F := Ideal) s2 s1 (ix2 r d) = ((α r d / lam r : ℝ) : EReal) :=
  pay3_apply ha hl r d (hne r)

end Cert.KernelIdeal.Hand.Step

end
-- ==== Proof.KI.AttnBlocks.lean ====
import proofs.«406486_j8624294330992_3_alg».proof.Proof.KI.Reg1
import proofs.«406486_j8624294330992_3_alg».proof.Proof.Alg
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

def qiOf (t : Fin cfg1.N) : Fin 8 := ⟨t.val / 8, by have := t.isLt; have : cfg1.N = 64 := N_1; omega⟩

def kiOf (t : Fin cfg1.N) : Fin 8 := ⟨t.val % 8, by omega⟩

theorem qIndex : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)

theorem kIndex : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)

theorem vIndex : ∀ t : Fin cfg1.N, win1_2.index t (0 : Fin 2) = t.val % 8 ∧ win1_2.index t (1 : Fin 2) = 0 :=
  (by decide +kernel : ∀ t : Fin grid1.N, win1_2.index t (0 : Fin 2) = t.val % 8 ∧ win1_2.index t (1 : Fin 2) = 0)

theorem oIndex : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)

theorem qblk_apply (c : Dev nD) (t : Fin cfg1.N) (r : Fin 1024) (d : Fin 512) :
    (iblk1 V c 0 t : Vec F S1024x512 .bf16) (ValueIdx.ix2 r d)
      = (V c main_v5_0 : Vec F S8192x512 .bf16) (ValueIdx.ix2 (Cert.Alg.keyOf (qiOf t) r) d) := by
  obtain ⟨e0, e1⟩ := qIndex t
  unfold iblk1
  rw [View.read_apply]
  show V c main_v5_0 _ = V c main_v5_0 _
  congr 1
  funext a
  apply Fin.ext
  match a with
  | ⟨0, _⟩ => show win1_0.index t (0 : Fin 2) * 1024 + 1 * r.val = 1024 * (t.val / 8) + r.val; rw [e0]; omega
  | ⟨1, _⟩ => show win1_0.index t (1 : Fin 2) * 512 + 1 * d.val = d.val; rw [e1]; omega

theorem kblk_apply (c : Dev nD) (t : Fin cfg1.N) (jj : Fin 1024) (d : Fin 512) :
    (iblk1 V c 1 t : Vec F S1024x512 .bf16) (ValueIdx.ix2 jj d)
      = (V c main_v5_1 : Vec F S8192x512 .bf16) (ValueIdx.ix2 (Cert.Alg.keyOf (kiOf t) jj) d) := by
  obtain ⟨e0, e1⟩ := kIndex t
  unfold iblk1
  rw [View.read_apply]
  show V c main_v5_1 _ = V c main_v5_1 _
  congr 1
  funext a
  apply Fin.ext
  match a with
  | ⟨0, _⟩ => show win1_1.index t (0 : Fin 2) * 1024 + 1 * jj.val = 1024 * (t.val % 8) + jj.val; rw [e0]; omega
  | ⟨1, _⟩ => show win1_1.index t (1 : Fin 2) * 512 + 1 * d.val = d.val; rw [e1]; omega

theorem vblk_apply (c : Dev nD) (t : Fin cfg1.N) (jj : Fin 1024) (d : Fin 512) :
    (iblk1 V c 2 t : Vec F S1024x512 .bf16) (ValueIdx.ix2 jj d)
      = (V c main_v5_2 : Vec F S8192x512 .bf16) (ValueIdx.ix2 (Cert.Alg.keyOf (kiOf t) jj) d) := by
  obtain ⟨e0, e1⟩ := vIndex t
  unfold iblk1
  rw [View.read_apply]
  show V c main_v5_2 _ = V c main_v5_2 _
  congr 1
  funext a
  apply Fin.ext
  match a with
  | ⟨0, _⟩ => show win1_2.index t (0 : Fin 2) * 1024 + 1 * jj.val = 1024 * (t.val % 8) + jj.val; rw [e0]; omega
  | ⟨1, _⟩ => show win1_2.index t (1 : Fin 2) * 512 + 1 * d.val = d.val; rw [e1]; omega

theorem mem_outBlock (t : Fin cfg1.N) (i : S8192x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v6).slice (win1_3.rect t)).set ↔ _
  rw [View.set_slice_whole, Rect.mem_set_unit]
  exact Iff.rfl

theorem outBlock_flushed (c : Dev nD) (G : Vec F S8192x512 .f32)
    (hG : ∀ (t : Fin cfg1.N), t.val % 8 = 7 → ∀ (r : Fin 1024) (d : Fin 512),
      ((outsAt1 V c t.val t.isLt).1 : Vec F S1024x512 .f32) (ValueIdx.ix2 r d) = G (ValueIdx.ix2 (Cert.Alg.keyOf (qiOf t) r) d))
    (t : Fin cfg1.N) (hf : (cfg1.win 3).flush t = true) :
    (dat1 V c).flushed 3 t = ((cfg1.win 3).blk t).view.read (Elt F) G := by
  have h7 : t.val % 8 = 7 := (flush1_3 t).mp hf
  obtain ⟨e0, e1⟩ := oIndex t
  show (cfg1.win 3).cut (grid1.coords t) ((dat1 V c).after 3 t) = _
  rw [after1_3]
  funext j
  rw [View.read_apply]
  have hj0 : (j 0).val < 1024 := (j 0).isLt
  have hj1 : (j 1).val < 512 := (j 1).isLt
  have key := hG t h7 ⟨(j 0).val, hj0⟩ ⟨(j 1).val, hj1⟩
  have hL : (cfg1.win 3).xinj (grid1.coords t) j = ValueIdx.ix2 (⟨(j 0).val, hj0⟩ : Fin 1024) (⟨(j 1).val, hj1⟩ : Fin 512) := by
    funext a; apply Fin.ext
    match a with
    | ⟨0, _⟩ => rfl
    | ⟨1, _⟩ => rfl
  have hR : ((cfg1.win 3).blk t).view.emb j = ValueIdx.ix2 (Cert.Alg.keyOf (qiOf t) ⟨(j 0).val, hj0⟩) (⟨(j 1).val, hj1⟩ : Fin 512) := by
    funext a; apply Fin.ext
    match a with
    | ⟨0, _⟩ => show win1_3.index t (0 : Fin 2) * 1024 + 1 * (j 0).val = 1024 * (t.val / 8) + (j 0).val; rw [e0]; omega
    | ⟨1, _⟩ => show win1_3.index t (1 : Fin 2) * 512 + 1 * (j 1).val = (j 1).val; rw [e1]; omega
  exact (congrArg (outsAt1 V c t.val t.isLt).1 hL).trans (key.trans (congrArg G hR).symm)

theorem out_arr_of_blocks (c : Dev nD) (G : Vec F S8192x512 .f32)
    (hG : ∀ (t : Fin cfg1.N), t.val % 8 = 7 → ∀ (r : Fin 1024) (d : Fin 512),
      ((outsAt1 V c t.val t.isLt).1 : Vec F S1024x512 .f32) (ValueIdx.ix2 r d) = G (ValueIdx.ix2 (Cert.Alg.keyOf (qiOf t) r) d)) :
    ((dat1 V c).arrAt 3 cfg1.N : Vec F S8192x512 .f32) = G := by
  refine (dat1 V c).arrAt_eq_of_cover 3 G (outBlock_flushed V c G hG) (fun i => ?_)
  have hN : cfg1.N = 64 := N_1
  have h0 : (i 0 : Nat) < 8192 := (i 0).isLt
  have h1 : (i 1 : Nat) < 512 := (i 1).isLt
  let tt : Fin cfg1.N := ⟨8 * ((i 0 : Nat) / 1024) + 7, by omega⟩
  have htt : tt.val = 8 * ((i 0 : Nat) / 1024) + 7 := rfl
  obtain ⟨e0, e1⟩ := oIndex tt
  refine ⟨tt, (flush1_3 tt).mpr (by rw [htt]; omega), ?_⟩
  rw [mem_outBlock]
  intro a
  match a with
  | ⟨0, _⟩ => show win1_3.index tt (0 : Fin 2) * 1024 ≤ (i 0 : Nat) ∧ (i 0 : Nat) < win1_3.index tt (0 : Fin 2) * 1024 + 1024
              rw [e0, htt]; omega
  | ⟨1, _⟩ => show win1_3.index tt (1 : Fin 2) * 512 ≤ (i 1 : Nat) ∧ (i 1 : Nat) < win1_3.index tt (1 : Fin 2) * 512 + 512
              rw [e1]; omega

end Cert.KernelIdeal.Hand

end
-- ==== Proof.KI.AttnValue.lean ====
import proofs.«406486_j8624294330992_3_alg».proof.Proof.KI.Reg1Pieces
import proofs.«406486_j8624294330992_3_alg».proof.Proof.KI.AttnStep
import proofs.«406486_j8624294330992_3_alg».proof.Proof.KI.AttnBlocks
import proofs.«406486_j8624294330992_3_alg».proof.Proof.Alg
import proofs.«406486_j8624294330992_3_alg».proof.Proof.Spec
import proofs.«406486_j8624294330992_3_alg».proof.Proof.Consts
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Cert.Alg

variable (V : (c : Dev nD) → (b : Ref sig .tc) → Buf (Elt Ideal) ((c : Thread nD τ).loc b))

def sc (Q K : Fin 8192 → Fin 512 → ℝ) (i j : Fin 8192) : ℝ :=
  Cert.Spec.lrelu Cert.Consts.slope (∑ d : Fin 512, Q i d * K j d)

def tileW (Q K : Fin 8192 → Fin 512 → ℝ) (i : Fin 8192) (k : Fin 8) (μ : ℝ) : ℝ :=
  ∑ jj : Fin 1024, Real.exp (sc Q K i (keyOf k jj) - μ)

def tileWV (Q K W : Fin 8192 → Fin 512 → ℝ) (i : Fin 8192) (d : Fin 512) (k : Fin 8) (μ : ℝ) : ℝ :=
  ∑ jj : Fin 1024, Real.exp (sc Q K i (keyOf k jj) - μ) * W (keyOf k jj) d

theorem tileW_shift (Q K : Fin 8192 → Fin 512 → ℝ) (i : Fin 8192) (k : Fin 8) (μ μ' : ℝ) :
    Real.exp (μ - μ') * tileW Q K i k μ = tileW Q K i k μ' :=
  online_sum Finset.univ (fun jj => sc Q K i (keyOf k jj)) μ μ'

theorem tileWV_shift (Q K W : Fin 8192 → Fin 512 → ℝ) (i : Fin 8192) (d : Fin 512) (k : Fin 8) (μ μ' : ℝ) :
    Real.exp (μ - μ') * tileWV Q K W i d k μ = tileWV Q K W i d k μ' :=
  online_wsum Finset.univ (fun jj => sc Q K i (keyOf k jj)) (fun jj => W (keyOf k jj) d) μ μ'

def upTo (a : Fin 8 → ℝ → ℝ) (n : ℕ) (μ : ℝ) : ℝ := ∑ k : Fin 8, if k.val ≤ n then a k μ else 0

theorem upTo_shift (a : Fin 8 → ℝ → ℝ) (ha : ∀ k μ μ', Real.exp (μ - μ') * a k μ = a k μ') (n : ℕ) (μ μ' : ℝ) :
    Real.exp (μ - μ') * upTo a n μ = upTo a n μ' := by
  unfold upTo
  rw [Finset.mul_sum]
  refine Finset.sum_congr rfl fun k _ => ?_
  split
  · exact ha k μ μ'
  · exact mul_zero _

def rowAt (n : ℕ) (r : Fin 1024) : Fin 8192 := ⟨1024 * (n / 8 % 8) + r.val, by have := r.isLt; omega⟩
def tileAt (n : ℕ) : Fin 8 := ⟨n % 8, by omega⟩

theorem keyOf_qiOf (t : Fin cfg1.N) (r : Fin 1024) : keyOf (qiOf t) r = rowAt t.val r := by
  have hN : cfg1.N = 64 := N_1
  have := t.isLt
  apply Fin.ext
  show 1024 * (t.val / 8) + r.val = 1024 * (t.val / 8 % 8) + r.val
  have : t.val / 8 % 8 = t.val / 8 := Nat.mod_eq_of_lt (by omega)
  rw [this]

theorem kiOf_eq (t : Fin cfg1.N) : kiOf t = tileAt t.val := rfl

theorem coords1 : ∀ t : Fin cfg1.N, ((grid1.coords t) 1).val = t.val % 8 :=
  (by decide +kernel : ∀ t : Fin grid1.N, ((grid1.coords t) 1).val = t.val % 8)

theorem upTo_first (a : Fin 8 → ℝ → ℝ) (n : ℕ) (h0 : n % 8 = 0) (μ : ℝ) : a (tileAt n) μ = upTo a (n % 8) μ := by
  unfold upTo
  rw [h0, psum_zero (fun k => a k μ) (by norm_num)]
  exact congrArg (fun k => a k μ) (Fin.ext h0)

theorem upTo_succ (a : Fin 8 → ℝ → ℝ) (n : ℕ) (h0 : ¬ (n + 1) % 8 = 0) (μ : ℝ) :
    upTo a (n % 8) μ + a (tileAt (n + 1)) μ = upTo a ((n + 1) % 8) μ := by
  have hm : (n + 1) % 8 = n % 8 + 1 := by omega
  unfold upTo
  rw [hm, psum_succ (fun k => a k μ) (n % 8) (by omega)]
  exact congrArg (fun k => (∑ k : Fin 8, if k.val ≤ n % 8 then a k μ else 0) + a k μ) (Fin.ext hm)

section Induction

variable (c : Dev nD) (Q K W : Fin 8192 → Fin 512 → ℝ)
  (hQ : ∀ p q, (V c main_v5_0 : Vec Ideal S8192x512 .bf16) (ix2 p q) = ((Q p q : ℝ) : EReal))
  (hK : ∀ p q, (V c main_v5_1 : Vec Ideal S8192x512 .bf16) (ix2 p q) = ((K p q : ℝ) : EReal))
  (hW : ∀ p q, (V c main_v5_2 : Vec Ideal S8192x512 .bf16) (ix2 p q) = ((W p q : ℝ) : EReal))

def Inv (n : ℕ) (hn : n < cfg1.N) : Prop :=
  ∃ μ : Fin 1024 → ℝ,
    (∀ r : Fin 1024, mAt1 V c n hn (ix2 r (0 : Fin 1)) = ((μ r : ℝ) : EReal))
    ∧ (∀ r : Fin 1024, lAt1 V c n hn (ix2 r (0 : Fin 1)) = ((upTo (tileW Q K (rowAt n r)) (n % 8) (μ r) : ℝ) : EReal))
    ∧ (∀ (r : Fin 1024) (d : Fin 512), accAt1 V c n hn (ix2 r d) = ((upTo (tileWV Q K W (rowAt n r) d) (n % 8) (μ r) : ℝ) : EReal))

abbrev qbAt (n : ℕ) : Fin 1024 → Fin 512 → ℝ := fun r d => Q (rowAt n r) d
abbrev kbAt (n : ℕ) : Fin 1024 → Fin 512 → ℝ := fun jj d => K (keyOf (tileAt n) jj) d
abbrev vbAt (n : ℕ) : Fin 1024 → Fin 512 → ℝ := fun jj d => W (keyOf (tileAt n) jj) d

include hQ hK hW in
theorem blocks (t : Fin cfg1.N) :
    (∀ (r : Fin 1024) (d : Fin 512), qblk1 V c t (ix2 r d) = ((qbAt Q t.val r d : ℝ) : EReal))
    ∧ (∀ (jj : Fin 1024) (d : Fin 512), kblk1 V c t (ix2 jj d) = ((kbAt K t.val jj d : ℝ) : EReal))
    ∧ (∀ (jj : Fin 1024) (d : Fin 512), vblk1 V c t (ix2 jj d) = ((vbAt W t.val jj d : ℝ) : EReal)) := by
  refine ⟨fun r d => ?_, fun jj d => ?_, fun jj d => ?_⟩
  · refine (qblk_apply V c t r d).trans ?_
    rw [keyOf_qiOf t r]
    exact hQ _ _
  · exact (kblk_apply V c t jj d).trans (hK _ _)
  · exact (vblk_apply V c t jj d).trans (hW _ _)

theorem tile_sum (n : ℕ) (r : Fin 1024) (μ : ℝ) :
    (∑ jj : Fin 1024, Real.exp (Pay.tileScore (qbAt Q n) (kbAt K n) r jj - μ)) = tileW Q K (rowAt n r) (tileAt n) μ := rfl
theorem tile_wsum (n : ℕ) (r : Fin 1024) (d : Fin 512) (μ : ℝ) :
    (∑ jj : Fin 1024, Real.exp (Pay.tileScore (qbAt Q n) (kbAt K n) r jj - μ) * vbAt W n jj d) = tileWV Q K W (rowAt n r) d (tileAt n) μ := rfl

include hQ hK hW in
theorem inv_first (t : Fin cfg1.N) (h0 : t.val % 8 = 0) : Inv V c Q K W t.val t.isLt := by
  obtain ⟨hq, hk, hv⟩ := blocks V c Q K W hQ hK hW t
  have hi : ((grid1.coords t) 1).val = 0 := by rw [coords1 t]; exact h0
  obtain ⟨μ', hm, hl, ha⟩ := Step.first (qb := qbAt Q t.val) (kb := kbAt K t.val) (vb := vbAt W t.val)
    (x0 := qblk1 V c t) (x1 := kblk1 V c t) (x2 := vblk1 V c t) (grid1.coords t) hi hq hk hv
  refine ⟨μ', fun r => ?_, fun r => ?_, fun r d => ?_⟩
  · exact (congrFun (first1 V c t h0).1 (ix2 r 0)).trans (hm r)
  · refine (congrFun (first1 V c t h0).2.1 (ix2 r 0)).trans ((hl r).trans ?_)
    rw [tile_sum Q K t.val r (μ' r)]
    exact congrArg _ (upTo_first (tileW Q K (rowAt t.val r)) t.val h0 (μ' r))
  · refine (congrFun (first1 V c t h0).2.2 (ix2 r d)).trans ((ha r d).trans ?_)
    rw [tile_wsum Q K W t.val r d (μ' r)]
    exact congrArg _ (upTo_first (tileWV Q K W (rowAt t.val r) d) t.val h0 (μ' r))

include hQ hK hW in
theorem inv_later (n : ℕ) (hn : n + 1 < cfg1.N) (h0 : ¬ (n + 1) % 8 = 0)
    (ih : Inv V c Q K W n (Nat.lt_of_succ_lt hn)) : Inv V c Q K W (n + 1) hn := by
  obtain ⟨μ, hm, hl, ha⟩ := ih
  obtain ⟨hq, hk, hv⟩ := blocks V c Q K W hQ hK hW ⟨n + 1, hn⟩
  have hrow : ∀ r : Fin 1024, rowAt (n + 1) r = rowAt n r := fun r => Fin.ext (by
    show 1024 * ((n + 1) / 8 % 8) + r.val = 1024 * (n / 8 % 8) + r.val
    have : (n + 1) / 8 = n / 8 := by omega
    rw [this])
  have hi : ((grid1.coords (⟨n + 1, hn⟩ : Fin cfg1.N)) 1).val ≠ 0 := by rw [coords1]; exact h0
  obtain ⟨μ', hm', hl', ha'⟩ := Step.later (qb := qbAt Q (n + 1)) (kb := kbAt K (n + 1)) (vb := vbAt W (n + 1))
    (x0 := qblk1 V c ⟨n + 1, hn⟩) (x1 := kblk1 V c ⟨n + 1, hn⟩) (x2 := vblk1 V c ⟨n + 1, hn⟩)
    (grid1.coords ⟨n + 1, hn⟩) hi hq hk hv
    (mAt1 V c n (Nat.lt_of_succ_lt hn)) (lAt1 V c n (Nat.lt_of_succ_lt hn)) (accAt1 V c n (Nat.lt_of_succ_lt hn))
    (fun r μ => upTo (tileW Q K (rowAt n r)) (n % 8) μ) (fun r d μ => upTo (tileWV Q K W (rowAt n r) d) (n % 8) μ)
    (fun r μ μ' => upTo_shift _ (tileW_shift Q K (rowAt n r)) (n % 8) μ μ')
    (fun r d μ μ' => upTo_shift _ (tileWV_shift Q K W (rowAt n r) d) (n % 8) μ μ')
    μ hm hl ha
  refine ⟨μ', fun r => ?_, fun r => ?_, fun r d => ?_⟩
  · exact (congrFun (later1 V c ⟨n + 1, hn⟩ h0).1 (ix2 r 0)).trans (hm' r)
  · refine (congrFun (later1 V c ⟨n + 1, hn⟩ h0).2.1 (ix2 r 0)).trans ((hl' r).trans ?_)
    rw [tile_sum Q K (n + 1) r (μ' r), hrow r]
    exact congrArg _ (upTo_succ (tileW Q K (rowAt n r)) n h0 (μ' r))
  · refine (congrFun (later1 V c ⟨n + 1, hn⟩ h0).2.2 (ix2 r d)).trans ((ha' r d).trans ?_)
    rw [tile_wsum Q K W (n + 1) r d (μ' r), hrow r]
    exact congrArg _ (upTo_succ (tileWV Q K W (rowAt n r) d) n h0 (μ' r))

include hQ hK hW in
theorem inv_all : ∀ (n : ℕ) (hn : n < cfg1.N), Inv V c Q K W n hn := by
  intro n
  induction n with
  | zero => intro hn; exact inv_first V c Q K W hQ hK hW ⟨0, hn⟩ rfl
  | succ n ih =>
    intro hn
    by_cases h0 : (n + 1) % 8 = 0
    · exact inv_first V c Q K W hQ hK hW ⟨n + 1, hn⟩ h0
    · exact inv_later V c Q K W hQ hK hW n hn h0 (ih (Nat.lt_of_succ_lt hn))

def attnArr : Vec Ideal S8192x512 .f32 := fun idx =>
  ((Cert.Spec.wavg (fun j : Fin 8192 => sc Q K ⟨(idx 0).val, idx2_lt0 idx⟩ j) (fun j : Fin 8192 => W j ⟨(idx 1).val, idx2_lt1 idx⟩) 0 : ℝ) : EReal)

theorem attnArr_ix2 (p : Fin 8192) (q : Fin 512) :
    attnArr Q K W (ix2 p q) = ((Cert.Spec.wavg (fun j : Fin 8192 => sc Q K p j) (fun j : Fin 8192 => W j q) 0 : ℝ) : EReal) := rfl

theorem upTo_seven (a : Fin 8 → ℝ → ℝ) (n : ℕ) (h7 : n % 8 = 7) (μ : ℝ) : upTo a (n % 8) μ = ∑ k : Fin 8, a k μ := by
  unfold upTo; rw [h7]; exact psum_all (fun k => a k μ) 7 (by norm_num)

include hQ hK hW in
theorem attn_val : ((dat1 V c).arrAt 3 cfg1.N : Vec Ideal S8192x512 .f32) = attnArr Q K W := by
  refine out_arr_of_blocks V c (attnArr Q K W) fun t h7 r d => ?_
  obtain ⟨μ, hm, hl, ha⟩ := inv_all V c Q K W hQ hK hW t.val t.isLt
  have hden : ∀ r : Fin 1024, upTo (tileW Q K (rowAt t.val r)) (t.val % 8) (μ r) ≠ 0 := fun r => by
    rw [upTo_seven _ t.val h7]
    exact (sum_tiles_exp_pos (fun j => sc Q K (rowAt t.val r) j) (μ r)).ne'
  refine (congrFun (last1 V c t h7) (ix2 r d)).trans ?_
  refine (Step.last (lAt1 V c t.val t.isLt) (accAt1 V c t.val t.isLt) _ _ hl ha hden r d).trans ?_
  rw [keyOf_qiOf t r, attnArr_ix2, upTo_seven _ t.val h7, upTo_seven _ t.val h7]
  exact congrArg _ (wavg_tiles (fun j => sc Q K (rowAt t.val r) j) (fun j => W j d) (μ r))

end Induction

end Cert.KernelIdeal.Hand

end
-- ==== Proof.lean ====
/- Both programs compute a softmax-weighted average. With Q = x1·wq, K = x2·wk, V = x1·wv, row i of the result is
   (Σ_j exp (s i j) · V j) / (Σ_j exp (s i j)), where s i j is the leaky rectifier of ⟨Q i, K j⟩. The reference shifts
   each row of scores by its maximum; the kernel sweeps the keys tile by tile under a running bound, rescaling its two
   sums whenever the bound moves. Such an average does not depend on the shift, so both are the unshifted average; the
   precondition makes every entry real, so the comparison takes place in the real field. -/
import proofs.«406486_j8624294330992_3_alg».proof.Defs
import proofs.«406486_j8624294330992_3_alg».proof.Proof.Gen.Kernel
import proofs.«406486_j8624294330992_3_alg».proof.Proof.Gen.Kernel.Skeleton
import proofs.«406486_j8624294330992_3_alg».proof.Proof.Gen.Kernel.Launch
import proofs.«406486_j8624294330992_3_alg».proof.Proof.Gen.Kernel.Regions
import proofs.«406486_j8624294330992_3_alg».proof.Proof.Gen.Kernel.Points
import proofs.«406486_j8624294330992_3_alg».proof.Proof.Gen.KernelIdeal
import proofs.«406486_j8624294330992_3_alg».proof.Proof.Gen.KernelIdeal.Skeleton
import proofs.«406486_j8624294330992_3_alg».proof.Proof.Gen.KernelIdeal.Launch
import proofs.«406486_j8624294330992_3_alg».proof.Proof.Gen.KernelIdeal.Regions
import proofs.«406486_j8624294330992_3_alg».proof.Proof.Gen.KernelIdeal.Points
import proofs.«406486_j8624294330992_3_alg».proof.Proof.Gen.ReferenceIdeal
import proofs.«406486_j8624294330992_3_alg».proof.Proof.Gen.Pre_finite_inputs
import proofs.«406486_j8624294330992_3_alg».proof.Proof.Spec
import proofs.«406486_j8624294330992_3_alg».proof.Proof.Consts
import proofs.«406486_j8624294330992_3_alg».proof.Proof.Finite
import proofs.«406486_j8624294330992_3_alg».proof.Proof.RefRun
import proofs.«406486_j8624294330992_3_alg».proof.Proof.RefVal
import proofs.«406486_j8624294330992_3_alg».proof.Proof.K.Run
import proofs.«406486_j8624294330992_3_alg».proof.Proof.KI.Run
import proofs.«406486_j8624294330992_3_alg».proof.Proof.KI.Val0
import proofs.«406486_j8624294330992_3_alg».proof.Proof.KI.AttnValue
import Idealize.ShloMosaic.Lib.ValueIdx
import Idealize.ShloMosaic.Adequacy
import Idealize.ShloMosaic.Init

noncomputable section

namespace Cert.KernelIdeal.Hand

open Cert.KernelIdeal Cert.KernelIdeal.Gen
open Idealize.ShloMosaic Idealize.ShloMosaic.TcCoe Idealize.SL.Sem
open Idealize.ShloMosaic.ValueIdx

/-- The average over the three projections is the attention function, by definition of the score. -/
theorem attnArr_proj (x1 x2 : Fin 8192 → Fin 512 → ℝ) (wq wk wv : Fin 512 → Fin 512 → ℝ) (p : Fin 8192) (q : Fin 512) :
    attnArr (Cert.Spec.proj x1 wq) (Cert.Spec.proj x2 wk) (Cert.Spec.proj x1 wv) (ix2 p q)
      = ((Cert.Spec.attn Cert.Consts.slope x1 x2 wq wk wv p q : ℝ) : EReal) :=
  (attnArr_ix2 _ _ _ p q).trans rfl

/-- Real arguments reach the first call unchanged, its products are the projections, and these are the second call's inputs. -/
theorem result_real (m : (ℓ : Loc nD τ sig) → Buf (Elt Ideal) ℓ) (ρ : Dev nD → PrngReg) (c : Dev nD)
    (x1 x2 : Fin 8192 → Fin 512 → ℝ) (wq wk wv : Fin 512 → Fin 512 → ℝ)
    (h0 : ∀ p q, (m ((c.tc : Thread nD τ).loc main_arg0) : Vec Ideal S8192x512 .f32) (ix2 p q) = ((x1 p q : ℝ) : EReal))
    (h1 : ∀ p q, (m ((c.tc : Thread nD τ).loc main_arg1) : Vec Ideal S8192x512 .f32) (ix2 p q) = ((x2 p q : ℝ) : EReal))
    (h2 : ∀ p q, (m ((c.tc : Thread nD τ).loc main_arg2) : Vec Ideal S512x512 .f32) (ix2 p q) = ((wq p q : ℝ) : EReal))
    (h3 : ∀ p q, (m ((c.tc : Thread nD τ).loc main_arg3) : Vec Ideal S512x512 .f32) (ix2 p q) = ((wk p q : ℝ) : EReal))
    (h4 : ∀ p q, (m ((c.tc : Thread nD τ).loc main_arg4) : Vec Ideal S512x512 .f32) (ix2 p q) = ((wv p q : ℝ) : EReal)) :
    (W3 m ρ c (Proc.devRef .tc main_v6) : Vec Ideal S8192x512 .f32)
      = attnArr (Cert.Spec.proj x1 wq) (Cert.Spec.proj x2 wk) (Cert.Spec.proj x1 wv) := by
  have e0 : ∀ p q, (V1 m ρ c main_v0 : Vec Ideal S8192x512 .bf16) (ix2 p q) = ((x1 p q : ℝ) : EReal) :=
    fun p q => (congrFun (V1_main_v0 m ρ c) (ix2 p q)).trans (h0 p q)
  have e1 : ∀ p q, (V1 m ρ c main_v1 : Vec Ideal S8192x512 .bf16) (ix2 p q) = ((x2 p q : ℝ) : EReal) :=
    fun p q => (congrFun (V1_main_v1 m ρ c) (ix2 p q)).trans (h1 p q)
  have e2 : ∀ p q, (V1 m ρ c main_v2 : Vec Ideal S512x512 .bf16) (ix2 p q) = ((wq p q : ℝ) : EReal) :=
    fun p q => (congrFun (V1_main_v2 m ρ c) (ix2 p q)).trans (h2 p q)
  have e3 : ∀ p q, (V1 m ρ c main_v3 : Vec Ideal S512x512 .bf16) (ix2 p q) = ((wk p q : ℝ) : EReal) :=
    fun p q => (congrFun (V1_main_v3 m ρ c) (ix2 p q)).trans (h3 p q)
  have e4 : ∀ p q, (V1 m ρ c main_v4 : Vec Ideal S512x512 .bf16) (ix2 p q) = ((wv p q : ℝ) : EReal) :=
    fun p q => (congrFun (V1_main_v4 m ρ c) (ix2 p q)).trans (h4 p q)
  have hQ : ∀ p q, (V2 m ρ c main_v5_0 : Vec Ideal S8192x512 .bf16) (ix2 p q) = ((Cert.Spec.proj x1 wq p q : ℝ) : EReal) :=
    fun p q => (congrFun (V2_main_v5_0 m ρ c) (ix2 p q)).trans (q_val (V1 m ρ) c x1 wq e0 e2 p q)
  have hK : ∀ p q, (V2 m ρ c main_v5_1 : Vec Ideal S8192x512 .bf16) (ix2 p q) = ((Cert.Spec.proj x2 wk p q : ℝ) : EReal) :=
    fun p q => (congrFun (V2_main_v5_1 m ρ c) (ix2 p q)).trans (k_val (V1 m ρ) c x2 wk e1 e3 p q)
  have hW : ∀ p q, (V2 m ρ c main_v5_2 : Vec Ideal S8192x512 .bf16) (ix2 p q) = ((Cert.Spec.proj x1 wv p q : ℝ) : EReal) :=
    fun p q => (congrFun (V2_main_v5_2 m ρ c) (ix2 p q)).trans (v_val (V1 m ρ) c x1 wv e0 e4 p q)
  exact (W3_main_v6 m ρ c).trans (attn_val (V2 m ρ) c _ _ _ hQ hK hW)

end Cert.KernelIdeal.Hand

namespace Cert.ReferenceIdeal.RefVal

open Idealize.ShloMosaic Idealize.ShloMosaic.ValueIdx

/-- Entry by entry the reference's term is the same average. -/
theorem refTerm_eq (x1 x2 : Fin 8192 → Fin 512 → ℝ) (wq wk wv : Fin 512 → Fin 512 → ℝ)
    (a0 a1 : FVec Ideal Cert.ReferenceIdeal.S8192x512 .f32) (a2 a3 a4 : FVec Ideal Cert.ReferenceIdeal.S512x512 .f32)
    (h0 : ∀ (p : Fin 8192) (q : Fin 512), a0 (ix2 p q) = ((x1 p q : ℝ) : EReal))
    (h1 : ∀ (p : Fin 8192) (q : Fin 512), a1 (ix2 p q) = ((x2 p q : ℝ) : EReal))
    (h2 : ∀ (p q : Fin 512), a2 (ix2 p q) = ((wq p q : ℝ) : EReal))
    (h3 : ∀ (p q : Fin 512), a3 (ix2 p q) = ((wk p q : ℝ) : EReal))
    (h4 : ∀ (p q : Fin 512), a4 (ix2 p q) = ((wv p q : ℝ) : EReal)) :
    Cert.ReferenceIdeal.RefRun.refTerm (F := Ideal) a0 a1 a2 a3 a4
      = Cert.KernelIdeal.Hand.attnArr (Cert.Spec.proj x1 wq) (Cert.Spec.proj x2 wk) (Cert.Spec.proj x1 wv) := by
  funext idx
  obtain ⟨p, q, rfl⟩ : ∃ (p : Fin 8192) (q : Fin 512), idx = ix2 p q := ⟨idx 0, idx 1, eq_ix2 idx⟩
  exact (refTerm_apply x1 x2 wq wk wv a0 a1 a2 a3 a4 h0 h1 h2 h3 h4 p q).trans
    (Cert.KernelIdeal.Hand.attnArr_proj x1 x2 wq wk wv p q).symm

end Cert.ReferenceIdeal.RefVal

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end, from memories agreeing on real arguments, at the attention function of those arguments. -/
theorem algebraic : Cert.algebraic_KernelIdeal_ReferenceIdeal := by
  intro m ρ m' ρ' hpre hagree
  have hr := fun c => Cert.Finite.real_of_pre _ _ _ _ _ (hpre c)
  choose x1 hx1 using fun c => (hr c).1
  choose x2 hx2 using fun c => (hr c).2.1
  choose wq hwq using fun c => (hr c).2.2.1
  choose wk hwk using fun c => (hr c).2.2.2.1
  choose wv hwv using fun c => (hr c).2.2.2.2
  refine ⟨fun c => Cert.KernelIdeal.Hand.attnArr (Cert.Spec.proj (x1 c) (wq c)) (Cert.Spec.proj (x2 c) (wk c))
      (Cert.Spec.proj (x1 c) (wv c)), ?_, ?_⟩
  · refine (θ_run Cert.KernelIdeal.defs _ _).mono (fun r h c => ⟨?_, ?_, ?_, ?_, ?_, ?_⟩)
      (Cert.KernelIdeal.Hand.run_all (F := Ideal) m ρ)
    · exact (h c _ (Cert.KernelIdeal.Hand.mem_uc Cert.KernelIdeal.main_v6 (by decide))).trans
        (Cert.KernelIdeal.Hand.result_real m ρ c (x1 c) (x2 c) (wq c) (wk c) (wv c) (hx1 c) (hx2 c) (hwq c) (hwk c) (hwv c))
    · exact (h c _ (Cert.KernelIdeal.Hand.mem_uc Cert.KernelIdeal.main_arg0 (by decide))).trans (Cert.KernelIdeal.Hand.W3_main_arg0 m ρ c)
    · exact (h c _ (Cert.KernelIdeal.Hand.mem_uc Cert.KernelIdeal.main_arg1 (by decide))).trans (Cert.KernelIdeal.Hand.W3_main_arg1 m ρ c)
    · exact (h c _ (Cert.KernelIdeal.Hand.mem_uc Cert.KernelIdeal.main_arg2 (by decide))).trans (Cert.KernelIdeal.Hand.W3_main_arg2 m ρ c)
    · exact (h c _ (Cert.KernelIdeal.Hand.mem_uc Cert.KernelIdeal.main_arg3 (by decide))).trans (Cert.KernelIdeal.Hand.W3_main_arg3 m ρ c)
    · exact (h c _ (Cert.KernelIdeal.Hand.mem_uc Cert.KernelIdeal.main_arg4 (by decide))).trans (Cert.KernelIdeal.Hand.W3_main_arg4 m ρ c)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2]
    exact Cert.ReferenceIdeal.RefVal.refTerm_eq (x1 c) (x2 c) (wq c) (wk c) (wv c) _ _ _ _ _
      (hx1 c) (hx2 c) (hwq c) (hwk c) (hwv c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
